-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

abbrev nBuf : Space → Nat
  | .hbm => 25
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .i1⟩
  | .hbm, ⟨10, _⟩ => ⟨S8192x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_call0_v0 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v69 : BitVec 1 := Scalar.cmpi .eq arg1 c7_i32
  let v70 : BitVec 32 := Scalar.extui v69
  let c0_i32_34 : BitVec 32 := 0#32
  let v71 : BitVec 1 := Scalar.cmpi .ne v70 c0_i32_34
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S1024x1_d0_w32 : S1024x1.Iotas .tc 32 [0]
  iota_S1x1024_d1_w32 : S1x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S256x8192 : Shape := ⟨2, ![256, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S1x8192, .i32⟩
  | .hbm, ⟨3, _⟩ => ⟨S8192x1, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S256x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .i1⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_call1_v0 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  transposes_S8192x256_S256x8192_1_0 : S8192x256.Transposes [1, 0] S256x8192
  reducesTo_S8192x8192_S8192_d1 : S8192x8192.ReducesTo [1] S8192
  h_S_ : 0 < S_.numel
  bcast_S_S8192x1 : S_.BroadcastsInDim S8192x1 (![] : Fin 0 → Fin S8192x1.rank)
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KI.Cases.lean ====
import proofs.«125195_j2516850835771_1_alg».proof.Proof.Gen.KernelIdeal.Launch
import proofs.«125195_j2516850835771_1_alg».proof.Proof.Gen.KernelIdeal.Skeleton
import proofs.«125195_j2516850835771_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
/-- The first branch is taken exactly at column block 0, -/
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
/-- and the second exactly at column block 7. -/
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

section Blocks
variable (V : (c : Dev nD) → (b : Ref sig .tc) → Buf (Elt F) ((c : Thread nD τ).loc b))

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Blocks

end Cert.KernelIdeal.Hand

end
-- ==== Proof.KI.RunB.lean ====
import proofs.«125195_j2516850835771_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

/-- Column blocks 1 … 6: the body run symbolically over the statistics so far. -/
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x256 .bf16) (x1 : Vec F S1024x256 .bf16) (x2 : Vec F S1024x1 .i32) (x3 : Vec F S1x1024 .i32) (xs0 xs1 xs2 xs3 : Vec F S1024x1 .f32) :
    Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.KI.RunA.lean ====
import proofs.«125195_j2516850835771_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

/-- Column block 0: the body run symbolically, the statistics starting from their reset values. -/
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x256 .bf16) (x1 : Vec F S1024x256 .bf16) (x2 : Vec F S1024x1 .i32) (x3 : Vec F S1x1024 .i32) :
    Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
import proofs.«125195_j2516850835771_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

/-- Column block 7: the same, and the two results are computed from the final statistics. -/
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x256 .bf16) (x1 : Vec F S1024x256 .bf16) (x2 : Vec F S1024x1 .i32) (x3 : Vec F S1x1024 .i32) (xs0 xs1 xs2 xs3 : Vec F S1024x1 .f32) :
    Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Hand

end
-- ==== Proof.KI.Outs.lean ====
import proofs.«125195_j2516850835771_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

def outIdle : Vec F S1024x1 .f32 := VO0_4.read (Elt F) VO0_4.junk

/-- The body's arguments: the grid point and its ten memory references. -/
structure BodyArgs where
  i : grid0.Coords
  arg2 : Memref sig .tc .vmem S1024x256 .bf16
  harg2 : arg2.IsWhole
  arg3 : Memref sig .tc .vmem S1024x256 .bf16
  harg3 : arg3.IsWhole
  arg4 : Memref sig .tc .vmem S1024x1 .i32
  harg4 : arg4.IsWhole
  arg5 : Memref sig .tc .vmem S1x1024 .i32
  harg5 : arg5.IsWhole
  arg6 : Memref sig .tc .vmem S1024x1 .f32
  harg6 : arg6.IsWhole
  arg7 : Memref sig .tc .vmem S1024x1 .f32
  harg7 : arg7.IsWhole
  arg8 : Memref sig .tc .vmem S1024x1 .f32
  harg8 : arg8.IsWhole
  arg9 : Memref sig .tc .vmem S1024x1 .f32
  harg9 : arg9.IsWhole
  arg10 : Memref sig .tc .vmem S1024x1 .f32
  harg10 : arg10.IsWhole
  arg11 : Memref sig .tc .vmem S1024x1 .f32
  harg11 : arg11.IsWhole

/-- The body's arguments at grid point `t`. -/
abbrev argsAt (t : Fin cfg0.N) : BodyArgs :=
  ⟨grid0.coords t, ms0_0 t, hs0_0 t, ms0_1 t, hs0_1 t, ms0_2 t, hs0_2 t, ms0_3 t, hs0_3 t, ms0_4 t, hs0_4 t, ms0_5 t, hs0_5 t,
    scM0_0, Memref.isWhole_whole _, scM0_1, Memref.isWhole_whole _, scM0_2, Memref.isWhole_whole _, scM0_3, Memref.isWhole_whole _⟩

abbrev runA (c : Dev nD) (a : BodyArgs) :=
  kernelRun0_A (F := F) c a.i a.arg2 a.harg2 a.arg3 a.harg3 a.arg4 a.harg4 a.arg5 a.harg5 a.arg6 a.harg6 a.arg7 a.harg7 a.arg8 a.harg8 a.arg9 a.harg9 a.arg10 a.harg10 a.arg11 a.harg11
abbrev runB (c : Dev nD) (a : BodyArgs) :=
  kernelRun0_B (F := F) c a.i a.arg2 a.harg2 a.arg3 a.harg3 a.arg4 a.harg4 a.arg5 a.harg5 a.arg6 a.harg6 a.arg7 a.harg7 a.arg8 a.harg8 a.arg9 a.harg9 a.arg10 a.harg10 a.arg11 a.harg11
abbrev runC (c : Dev nD) (a : BodyArgs) :=
  kernelRun0_C (F := F) c a.i a.arg2 a.harg2 a.arg3 a.harg3 a.arg4 a.harg4 a.arg5 a.harg5 a.arg6 a.harg6 a.arg7 a.harg7 a.arg8 a.harg8 a.arg9 a.harg9 a.arg10 a.harg10 a.arg11 a.harg11

theorem scover0_A_0 (c : Dev nD) (a : BodyArgs) (hc0 : cond0_0 a.i) (hc1 : ¬cond0_1 a.i)
    (x0 : Vec F S1024x256 .bf16) (x1 : Vec F S1024x256 .bf16) (x2 : Vec F S1024x1 .i32) (x3 : Vec F S1x1024 .i32) (y : S1024x1.Idx) :
    ∃ pc ∈ (runA c a hc0 hc1 x0 x1 x2 x3).1, y ∈ pc.1.set :=
  View.cover_of_tiledL (runA c a hc0 hc1 x0 x1 x2 x3).1 S1024x1.size (by sl_kernel_rfl) y

def sout0_A_0 (c : Dev nD) (a : BodyArgs) (hc0 : cond0_0 a.i) (hc1 : ¬cond0_1 a.i)
    (x0 : Vec F S1024x256 .bf16) (x1 : Vec F S1024x256 .bf16) (x2 : Vec F S1024x1 .i32) (x3 : Vec F S1x1024 .i32) : Vec F S1024x1 .f32 :=
  VS0_0.read (Elt F) (VS0_0.writes (Elt F) VS0_0.junk (runA c a hc0 hc1 x0 x1 x2 x3).1)

theorem scover0_B_0 (c : Dev nD) (a : BodyArgs) (hc0 : ¬cond0_0 a.i) (hc1 : ¬cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runB c a hc0 hc1 x0 x1 x2 x3 xs0 xs1 xs2 xs3).1, y ∈ pc.1.set :=
  View.cover_of_tiledL (runB c a hc0 hc1 x0 x1 x2 x3 xs0 xs1 xs2 xs3).1 S1024x1.size (by sl_kernel_rfl) y

def sout0_B_0 (c : Dev nD) (a : BodyArgs) (hc0 : ¬cond0_0 a.i) (hc1 : ¬cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VS0_0.read (Elt F) (VS0_0.writes (Elt F) VS0_0.junk (runB c a hc0 hc1 x0 x1 x2 x3 xs0 xs1 xs2 xs3).1)

theorem scover0_C_0 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runC c a hc0 hc1 x0 x1 x2 x3 xs0 xs1 xs2 xs3).2.2.1, y ∈ pc.1.set :=
  View.cover_of_tiledL (runC c a hc0 hc1 x0 x1 x2 x3 xs0 xs1 xs2 xs3).2.2.1 S1024x1.size (by sl_kernel_rfl) y

def sout0_C_0 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VS0_0.read (Elt F) (VS0_0.writes (Elt F) VS0_0.junk (runC c a hc0 hc1 x0 x1 x2 x3 xs0 xs1 xs2 xs3).2.2.1)

theorem scover0_A_1 (c : Dev nD) (a : BodyArgs) (hc0 : cond0_0 a.i) (hc1 : ¬cond0_1 a.i)
    (x0 : Vec F S1024x256 .bf16) (x1 : Vec F S1024x256 .bf16) (x2 : Vec F S1024x1 .i32) (x3 : Vec F S1x1024 .i32) (y : S1024x1.Idx) :
    ∃ pc ∈ (runA c a hc0 hc1 x0 x1 x2 x3).2.1, y ∈ pc.1.set :=
  View.cover_of_tiledL (runA c a hc0 hc1 x0 x1 x2 x3).2.1 S1024x1.size (by sl_kernel_rfl) y

def sout0_A_1 (c : Dev nD) (a : BodyArgs) (hc0 : cond0_0 a.i) (hc1 : ¬cond0_1 a.i)
    (x0 : Vec F S1024x256 .bf16) (x1 : Vec F S1024x256 .bf16) (x2 : Vec F S1024x1 .i32) (x3 : Vec F S1x1024 .i32) : Vec F S1024x1 .f32 :=
  VS0_1.read (Elt F) (VS0_1.writes (Elt F) VS0_1.junk (runA c a hc0 hc1 x0 x1 x2 x3).2.1)

theorem scover0_B_1 (c : Dev nD) (a : BodyArgs) (hc0 : ¬cond0_0 a.i) (hc1 : ¬cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runB c a hc0 hc1 x0 x1 x2 x3 xs0 xs1 xs2 xs3).2.1, y ∈ pc.1.set :=
  View.cover_of_tiledL (runB c a hc0 hc1 x0 x1 x2 x3 xs0 xs1 xs2 xs3).2.1 S1024x1.size (by sl_kernel_rfl) y

def sout0_B_1 (c : Dev nD) (a : BodyArgs) (hc0 : ¬cond0_0 a.i) (hc1 : ¬cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VS0_1.read (Elt F) (VS0_1.writes (Elt F) VS0_1.junk (runB c a hc0 hc1 x0 x1 x2 x3 xs0 xs1 xs2 xs3).2.1)

theorem scover0_C_1 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runC c a hc0 hc1 x0 x1 x2 x3 xs0 xs1 xs2 xs3).2.2.2.1, y ∈ pc.1.set :=
  View.cover_of_tiledL (runC c a hc0 hc1 x0 x1 x2 x3 xs0 xs1 xs2 xs3).2.2.2.1 S1024x1.size (by sl_kernel_rfl) y

def sout0_C_1 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VS0_1.read (Elt F) (VS0_1.writes (Elt F) VS0_1.junk (runC c a hc0 hc1 x0 x1 x2 x3 xs0 xs1 xs2 xs3).2.2.2.1)

theorem scover0_A_2 (c : Dev nD) (a : BodyArgs) (hc0 : cond0_0 a.i) (hc1 : ¬cond0_1 a.i)
    (x0 : Vec F S1024x256 .bf16) (x1 : Vec F S1024x256 .bf16) (x2 : Vec F S1024x1 .i32) (x3 : Vec F S1x1024 .i32) (y : S1024x1.Idx) :
    ∃ pc ∈ (runA c a hc0 hc1 x0 x1 x2 x3).2.2.1, y ∈ pc.1.set :=
  View.cover_of_tiledL (runA c a hc0 hc1 x0 x1 x2 x3).2.2.1 S1024x1.size (by sl_kernel_rfl) y

def sout0_A_2 (c : Dev nD) (a : BodyArgs) (hc0 : cond0_0 a.i) (hc1 : ¬cond0_1 a.i)
    (x0 : Vec F S1024x256 .bf16) (x1 : Vec F S1024x256 .bf16) (x2 : Vec F S1024x1 .i32) (x3 : Vec F S1x1024 .i32) : Vec F S1024x1 .f32 :=
  VS0_2.read (Elt F) (VS0_2.writes (Elt F) VS0_2.junk (runA c a hc0 hc1 x0 x1 x2 x3).2.2.1)

theorem scover0_B_2 (c : Dev nD) (a : BodyArgs) (hc0 : ¬cond0_0 a.i) (hc1 : ¬cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runB c a hc0 hc1 x0 x1 x2 x3 xs0 xs1 xs2 xs3).2.2.1, y ∈ pc.1.set :=
  View.cover_of_tiledL (runB c a hc0 hc1 x0 x1 x2 x3 xs0 xs1 xs2 xs3).2.2.1 S1024x1.size (by sl_kernel_rfl) y

def sout0_B_2 (c : Dev nD) (a : BodyArgs) (hc0 : ¬cond0_0 a.i) (hc1 : ¬cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VS0_2.read (Elt F) (VS0_2.writes (Elt F) VS0_2.junk (runB c a hc0 hc1 x0 x1 x2 x3 xs0 xs1 xs2 xs3).2.2.1)

theorem scover0_C_2 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runC c a hc0 hc1 x0 x1 x2 x3 xs0 xs1 xs2 xs3).2.2.2.2.1, y ∈ pc.1.set :=
  View.cover_of_tiledL (runC c a hc0 hc1 x0 x1 x2 x3 xs0 xs1 xs2 xs3).2.2.2.2.1 S1024x1.size (by sl_kernel_rfl) y

def sout0_C_2 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VS0_2.read (Elt F) (VS0_2.writes (Elt F) VS0_2.junk (runC c a hc0 hc1 x0 x1 x2 x3 xs0 xs1 xs2 xs3).2.2.2.2.1)

theorem scover0_A_3 (c : Dev nD) (a : BodyArgs) (hc0 : cond0_0 a.i) (hc1 : ¬cond0_1 a.i)
    (x0 : Vec F S1024x256 .bf16) (x1 : Vec F S1024x256 .bf16) (x2 : Vec F S1024x1 .i32) (x3 : Vec F S1x1024 .i32) (y : S1024x1.Idx) :
    ∃ pc ∈ (runA c a hc0 hc1 x0 x1 x2 x3).2.2.2.1, y ∈ pc.1.set :=
  View.cover_of_tiledL (runA c a hc0 hc1 x0 x1 x2 x3).2.2.2.1 S1024x1.size (by sl_kernel_rfl) y

def sout0_A_3 (c : Dev nD) (a : BodyArgs) (hc0 : cond0_0 a.i) (hc1 : ¬cond0_1 a.i)
    (x0 : Vec F S1024x256 .bf16) (x1 : Vec F S1024x256 .bf16) (x2 : Vec F S1024x1 .i32) (x3 : Vec F S1x1024 .i32) : Vec F S1024x1 .f32 :=
  VS0_3.read (Elt F) (VS0_3.writes (Elt F) VS0_3.junk (runA c a hc0 hc1 x0 x1 x2 x3).2.2.2.1)

theorem scover0_B_3 (c : Dev nD) (a : BodyArgs) (hc0 : ¬cond0_0 a.i) (hc1 : ¬cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runB c a hc0 hc1 x0 x1 x2 x3 xs0 xs1 xs2 xs3).2.2.2.1, y ∈ pc.1.set :=
  View.cover_of_tiledL (runB c a hc0 hc1 x0 x1 x2 x3 xs0 xs1 xs2 xs3).2.2.2.1 S1024x1.size (by sl_kernel_rfl) y

def sout0_B_3 (c : Dev nD) (a : BodyArgs) (hc0 : ¬cond0_0 a.i) (hc1 : ¬cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VS0_3.read (Elt F) (VS0_3.writes (Elt F) VS0_3.junk (runB c a hc0 hc1 x0 x1 x2 x3 xs0 xs1 xs2 xs3).2.2.2.1)

theorem scover0_C_3 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runC c a hc0 hc1 x0 x1 x2 x3 xs0 xs1 xs2 xs3).2.2.2.2.2.1, y ∈ pc.1.set :=
  View.cover_of_tiledL (runC c a hc0 hc1 x0 x1 x2 x3 xs0 xs1 xs2 xs3).2.2.2.2.2.1 S1024x1.size (by sl_kernel_rfl) y

def sout0_C_3 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VS0_3.read (Elt F) (VS0_3.writes (Elt F) VS0_3.junk (runC c a hc0 hc1 x0 x1 x2 x3 xs0 xs1 xs2 xs3).2.2.2.2.2.1)

theorem cover0_C_4 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runC c a hc0 hc1 x0 x1 x2 x3 xs0 xs1 xs2 xs3).1, y ∈ pc.1.set :=
  View.cover_of_tiledL (runC c a hc0 hc1 x0 x1 x2 x3 xs0 xs1 xs2 xs3).1 S1024x1.size (by sl_kernel_rfl) y

def out0_C_4 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VO0_4.read (Elt F) (VO0_4.writes (Elt F) VO0_4.junk (runC c a hc0 hc1 x0 x1 x2 x3 xs0 xs1 xs2 xs3).1)

theorem cover0_C_5 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) (y : S1024x1.Idx) :
    ∃ pc ∈ (runC c a hc0 hc1 x0 x1 x2 x3 xs0 xs1 xs2 xs3).2.1, y ∈ pc.1.set :=
  View.cover_of_tiledL (runC c a hc0 hc1 x0 x1 x2 x3 xs0 xs1 xs2 xs3).2.1 S1024x1.size (by sl_kernel_rfl) y

def out0_C_5 (c : Dev nD) (a : BodyArgs) (hc0 : ¬cond0_0 a.i) (hc1 : cond0_1 a.i)
    (x0 : Vec F S1024x256 .bf16) (x1 : Vec F S1024x256 .bf16) (x2 : Vec F S1024x1 .i32) (x3 : Vec F S1x1024 .i32) (xs0 xs1 xs2 xs3 : Vec F S1024x1 .f32) : Vec F S1024x1 .f32 :=
  VO0_5.read (Elt F) (VO0_5.writes (Elt F) VO0_5.junk (runC c a hc0 hc1 x0 x1 x2 x3 xs0 xs1 xs2 xs3).2.1)

section Accumulation
variable (V : (c : Dev nD) → (b : Ref sig .tc) → Buf (Elt F) ((c : Thread nD τ).loc b))

theorem not_c1_of_mod0 (t : Fin cfg0.N) (h0 : t.val % 8 = 0) : ¬cond0_1 (grid0.coords t) :=
  fun h => by have := (hcond0_1 t).mp h; omega

/-- The two results and the four statistics after point n, each case over what the point before left. -/
def outsAt0 (c : Dev nD) : (n : ℕ) → n < cfg0.N → Vec F S1024x1 .f32 × Vec F S1024x1 .f32 × Vec F S1024x1 .f32 × Vec F S1024x1 .f32 × Vec F S1024x1 .f32 × Vec F S1024x1 .f32
  | 0, hn => (outIdle, outIdle, sout0_A_0 c (argsAt ⟨0, hn⟩) ((hcond0_0 ⟨0, hn⟩).mpr (Nat.zero_mod _)) (not_c1_of_mod0 ⟨0, hn⟩ (Nat.zero_mod _)) (iblk V c 0 ⟨0, hn⟩) (iblk V c 1 ⟨0, hn⟩) (iblk V c 2 ⟨0, hn⟩) (iblk V c 3 ⟨0, hn⟩), sout0_A_1 c (argsAt ⟨0, hn⟩) ((hcond0_0 ⟨0, hn⟩).mpr (Nat.zero_mod _)) (not_c1_of_mod0 ⟨0, hn⟩ (Nat.zero_mod _)) (iblk V c 0 ⟨0, hn⟩) (iblk V c 1 ⟨0, hn⟩) (iblk V c 2 ⟨0, hn⟩) (iblk V c 3 ⟨0, hn⟩), sout0_A_2 c (argsAt ⟨0, hn⟩) ((hcond0_0 ⟨0, hn⟩).mpr (Nat.zero_mod _)) (not_c1_of_mod0 ⟨0, hn⟩ (Nat.zero_mod _)) (iblk V c 0 ⟨0, hn⟩) (iblk V c 1 ⟨0, hn⟩) (iblk V c 2 ⟨0, hn⟩) (iblk V c 3 ⟨0, hn⟩), sout0_A_3 c (argsAt ⟨0, hn⟩) ((hcond0_0 ⟨0, hn⟩).mpr (Nat.zero_mod _)) (not_c1_of_mod0 ⟨0, hn⟩ (Nat.zero_mod _)) (iblk V c 0 ⟨0, hn⟩) (iblk V c 1 ⟨0, hn⟩) (iblk V c 2 ⟨0, hn⟩) (iblk V c 3 ⟨0, hn⟩))
  | n + 1, hn =>
    if h0 : (n + 1) % 8 = 0 then
      (outIdle, outIdle, sout0_A_0 c (argsAt ⟨n + 1, hn⟩) ((hcond0_0 ⟨n + 1, hn⟩).mpr h0) (not_c1_of_mod0 ⟨n + 1, hn⟩ h0) (iblk V c 0 ⟨n + 1, hn⟩) (iblk V c 1 ⟨n + 1, hn⟩) (iblk V c 2 ⟨n + 1, hn⟩) (iblk V c 3 ⟨n + 1, hn⟩), sout0_A_1 c (argsAt ⟨n + 1, hn⟩) ((hcond0_0 ⟨n + 1, hn⟩).mpr h0) (not_c1_of_mod0 ⟨n + 1, hn⟩ h0) (iblk V c 0 ⟨n + 1, hn⟩) (iblk V c 1 ⟨n + 1, hn⟩) (iblk V c 2 ⟨n + 1, hn⟩) (iblk V c 3 ⟨n + 1, hn⟩), sout0_A_2 c (argsAt ⟨n + 1, hn⟩) ((hcond0_0 ⟨n + 1, hn⟩).mpr h0) (not_c1_of_mod0 ⟨n + 1, hn⟩ h0) (iblk V c 0 ⟨n + 1, hn⟩) (iblk V c 1 ⟨n + 1, hn⟩) (iblk V c 2 ⟨n + 1, hn⟩) (iblk V c 3 ⟨n + 1, hn⟩), sout0_A_3 c (argsAt ⟨n + 1, hn⟩) ((hcond0_0 ⟨n + 1, hn⟩).mpr h0) (not_c1_of_mod0 ⟨n + 1, hn⟩ h0) (iblk V c 0 ⟨n + 1, hn⟩) (iblk V c 1 ⟨n + 1, hn⟩) (iblk V c 2 ⟨n + 1, hn⟩) (iblk V c 3 ⟨n + 1, hn⟩))
    else if h1 : (n + 1) % 8 = 7 then
      (out0_C_4 c (argsAt ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_5 c (argsAt ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_0 c (argsAt ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_1 c (argsAt ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_2 c (argsAt ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_3 c (argsAt ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
    else
      (outIdle, outIdle, sout0_B_0 c (argsAt ⟨n + 1, hn⟩) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (argsAt ⟨n + 1, hn⟩) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (argsAt ⟨n + 1, hn⟩) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_3 c (argsAt ⟨n + 1, hn⟩) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

theorem outsAt0_A (c : Dev nD) (t : Fin cfg0.N) (h0 : t.val % 8 = 0) :
    outsAt0 V c t.val t.isLt = (outIdle, outIdle, sout0_A_0 c (argsAt t) ((hcond0_0 t).mpr h0) (not_c1_of_mod0 t h0) (iblk V c 0 t) (iblk V c 1 t) (iblk V c 2 t) (iblk V c 3 t), sout0_A_1 c (argsAt t) ((hcond0_0 t).mpr h0) (not_c1_of_mod0 t h0) (iblk V c 0 t) (iblk V c 1 t) (iblk V c 2 t) (iblk V c 3 t), sout0_A_2 c (argsAt t) ((hcond0_0 t).mpr h0) (not_c1_of_mod0 t h0) (iblk V c 0 t) (iblk V c 1 t) (iblk V c 2 t) (iblk V c 3 t), sout0_A_3 c (argsAt t) ((hcond0_0 t).mpr h0) (not_c1_of_mod0 t h0) (iblk V c 0 t) (iblk V c 1 t) (iblk V c 2 t) (iblk V c 3 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (outIdle, outIdle, sout0_B_0 c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_B_1 c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_B_2 c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_B_3 c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_4 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, out0_C_5 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_0 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_1 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_2 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2, sout0_C_3 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

end Accumulation

end Cert.KernelIdeal.Hand

end
-- ==== Proof.KI.Frame.lean ====
import proofs.«125195_j2516850835771_1_alg».proof.Proof.KI.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Data
variable (V : (c : Dev nD) → (b : Ref sig .tc) → Buf (Elt F) ((c : Thread nD τ).loc b))

/-- Between points the statistics hold what the last point left; before the first, anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2.1) ∗ owns (c : Thread nD τ) scM0_3 fullShare ((outsAt0 V c (n - 1) (by omega)).2.2.2.2.2)) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
    | ⟨5, _⟩ => (outsAt0 V c t.val t.isLt).2.1
  Φ t := PhiS V c t.val (Nat.le_of_lt_succ t.isLt)
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk V c 0 t :=
  before0_0_of V (dat0 V c) (A_eq0 V c 0) (after0_0 V c) t d
theorem before0_1 (c : Dev nD) (t : Fin cfg0.N) (d) : (dat0 V c).before 1 t d = iblk V c 1 t :=
  before0_1_of V (dat0 V c) (A_eq0 V c 1) (after0_1 V c) t d
theorem before0_2 (c : Dev nD) (t : Fin cfg0.N) (d) : (dat0 V c).before 2 t d = iblk V c 2 t :=
  before0_2_of V (dat0 V c) (A_eq0 V c 2) (after0_2 V c) t d
theorem before0_3 (c : Dev nD) (t : Fin cfg0.N) (d) : (dat0 V c).before 3 t d = iblk V c 3 t :=
  before0_3_of V (dat0 V c) (A_eq0 V c 3) (after0_3 V c) t d

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- Before any point the invariant yields the four statistics at some contents. -/
theorem Phi_any (c : Dev nD) (t : Fin cfg0.N) : (dat0 V c).Φ t.castSucc ⊢ Pipeline.ΦA spec0 c := by
  by_cases hz : t.val = 0
  · rw [PhiS_castSucc V c t, PhiS_zero V c _ _ hz]
    try exact Idealize.SL.BI.Entails.refl _
  · exact Phi_out V c t.castSucc (by rw [Fin.coe_castSucc]; exact hz)

set_option maxHeartbeats 4800000 in

/-- The body meets its obligation at every point, by the point's column block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · rw [Dat.leavesExact_idle (dat0 V c) 4 t (idleAt0_4 t (not_c1_of_mod0 t h0)) (noFlush0_4 t (not_c1_of_mod0 t h0))]
    rw [Dat.leavesExact_idle (dat0 V c) 5 t (idleAt0_5 t (not_c1_of_mod0 t h0)) (noFlush0_5 t (not_c1_of_mod0 t h0))]
    rw [outsAt0_A V c t h0]
    unfold sout0_A_0 sout0_A_1 sout0_A_2 sout0_A_3; (try dsimp only)
    refine (sep_mono (Phi_any V c t) .rfl).trans ?_
    rw [PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((runA c (argsAt t) ((hcond0_0 t).mpr h0) (not_c1_of_mod0 t h0) (iblk V c 0 t) (iblk V c 1 t) (iblk V c 2 t) (iblk V c 3 t)).2.2.2.2 ((dat0 V c).before 4 t d4) ((dat0 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (scover0_A_0 c (argsAt t) ((hcond0_0 t).mpr h0) (not_c1_of_mod0 t h0) (iblk V c 0 t) (iblk V c 1 t) (iblk V c 2 t) (iblk V c 3 t))
        isplitl [HS1]
        · unfold owns; iexists _; isplitr
          swap; · iexact HS1
          ipureintro; exact View.read_writes_of_cover _ _ _ _ _ (scover0_A_1 c (argsAt t) ((hcond0_0 t).mpr h0) (not_c1_of_mod0 t h0) (iblk V c 0 t) (iblk V c 1 t) (iblk V c 2 t) (iblk V c 3 t))
        isplitl [HS2]
        · unfold owns; iexists _; isplitr
          swap; · iexact HS2
          ipureintro; exact View.read_writes_of_cover _ _ _ _ _ (scover0_A_2 c (argsAt t) ((hcond0_0 t).mpr h0) (not_c1_of_mod0 t h0) (iblk V c 0 t) (iblk V c 1 t) (iblk V c 2 t) (iblk V c 3 t))
        unfold owns; iexists _; isplitr
        swap; · iexact HS3
        ipureintro; exact View.read_writes_of_cover _ _ _ _ _ (scover0_A_3 c (argsAt t) ((hcond0_0 t).mpr h0) (not_c1_of_mod0 t h0) (iblk V c 0 t) (iblk V c 1 t) (iblk V c 2 t) (iblk V c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_4 out0_C_5 sout0_C_0 sout0_C_1 sout0_C_2 sout0_C_3; (try dsimp only)
      rw [PhiS_castSucc V c t, PhiS_pos V c _ _ (by omega)]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runC c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_C_0 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
          isplitl [HS1]
          · unfold owns; iexists _; isplitr
            swap; · iexact HS1
            ipureintro; exact View.read_writes_of_cover _ _ _ _ _ (scover0_C_1 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
          isplitl [HS2]
          · unfold owns; iexists _; isplitr
            swap; · iexact HS2
            ipureintro; exact View.read_writes_of_cover _ _ _ _ _ (scover0_C_2 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
          unfold owns; iexists _; isplitr
          swap; · iexact HS3
          ipureintro; exact View.read_writes_of_cover _ _ _ _ _ (scover0_C_3 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
      unfold owns; iexists _; isplitr
      swap; · iexact H5
      ipureintro; exact View.read_writes_of_cover _ _ _ _ _ (cover0_C_5 c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
    · rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0 sout0_B_1 sout0_B_2 sout0_B_3; (try dsimp only)
      rw [PhiS_castSucc V c t, PhiS_pos V c _ _ (by omega)]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply ((runB c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2).2.2.2.2 ((dat0 V c).before 4 t d4) ((dat0 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
          isplitl [HS1]
          · unfold owns; iexists _; isplitr
            swap; · iexact HS1
            ipureintro; exact View.read_writes_of_cover _ _ _ _ _ (scover0_B_1 c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
          isplitl [HS2]
          · unfold owns; iexists _; isplitr
            swap; · iexact HS2
            ipureintro; exact View.read_writes_of_cover _ _ _ _ _ (scover0_B_2 c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
          unfold owns; iexists _; isplitr
          swap; · iexact HS3
          ipureintro; exact View.read_writes_of_cover _ _ _ _ _ (scover0_B_3 c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c :=
  Phi_out V c _ (by rw [Fin.val_last]; have : cfg0.N = 64 := N_0; omega)

end Data

end Cert.KernelIdeal.Hand

end
-- ==== Proof.KI.Bounds.lean ====
import proofs.«125195_j2516850835771_1_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.SL.BI (bigSepL bigSep_eq_bigSepL_of_eq)

section Shares
variable (V : (c : Dev nD) → (b : Ref sig .tc) → Buf (Elt F) ((c : Thread nD τ).loc b))

theorem arrBufs0_eq (c : Dev nD) (Vc : (b : Ref sig .tc) → Buf (Elt F) ((c : Thread nD τ).loc b)) :
    (Pipeline.arrBufs spec0 c Vc : sProp 𝕄)
      = iprop((((c : Thread nD τ).loc main_v0) ↦{fullShare} Vc main_v0) ∗ (((c : Thread nD τ).loc main_v1) ↦{fullShare} Vc main_v1)
          ∗ (((c : Thread nD τ).loc main_v2) ↦{fullShare} Vc main_v2) ∗ (((c : Thread nD τ).loc main_v3_0) ↦{fullShare} Vc main_v3_0)
          ∗ (((c : Thread nD τ).loc main_v3_1) ↦{fullShare} Vc main_v3_1)) := by
  unfold Pipeline.arrBufs
  rw [bigSep_eq_bigSepL_of_eq [main_v0, main_v1, main_v2, main_v3_0, main_v3_1] (by decide) (by decide)]
  rfl

theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl
theorem share0_5 (c : Dev nD) : (dat0 V c).share 5 = fullShare := rfl

theorem arrays0_eq (c : Dev nD) (Fw : (w : Fin cfg0.W) → Buf (Elt F) ((cfg0.win w).arr.view.loc (c : Thread nD τ))) :
    ((dat0 V c).arrays Fw : sProp 𝕄)
      = iprop((((c : Thread nD τ).loc main_v0) ↦{fullShare.left} Fw 0) ∗ (((c : Thread nD τ).loc main_v0) ↦{fullShare.right} Fw 1)
          ∗ (((c : Thread nD τ).loc main_v1) ↦{fullShare} Fw 2) ∗ (((c : Thread nD τ).loc main_v2) ↦{fullShare} Fw 3)
          ∗ (((c : Thread nD τ).loc main_v3_0) ↦{fullShare} Fw 4) ∗ (((c : Thread nD τ).loc main_v3_1) ↦{fullShare} Fw 5)) := by
  unfold Dat.arrays
  rw [bigSep_W0, (arr_whole0 0).set_eq_univ, (arr_whole0 2).set_eq_univ, (arr_whole0 3).set_eq_univ,
    (arr_whole0 4).set_eq_univ, (arr_whole0 5).set_eq_univ, share0_0, share0_1, share0_2, share0_3, share0_4, share0_5]

end Shares

section Split
variable (V : (c : Dev nD) → (b : Ref sig .tc) → Buf (Elt F) ((c : Thread nD τ).loc b))

theorem arrays_split0 (c : Dev nD) : (Pipeline.arrBufs spec0 c (V c) : sProp 𝕄) ⊢ (dat0 V c).arrays ((dat0 V c).arrAt · 0) := by
  rw [arrBufs0_eq, arrays0_eq]
  iintro ⟨H0, H1, H2, H3, H4⟩
  ihave Hs := (pointsTo_share (PosShare.mem_left_op_right fullShare)).1 $$ H0
  icases Hs with ⟨H0l, H0r⟩
  isplitl [H0l]; · iexact H0l
  isplitl [H0r]; · iexact H0r
  isplitl [H1]; · iexact H1
  isplitl [H2]; · iexact H2
  isplitl [H3]; · iexact H3
  iexact H4

theorem arrays_join0 (c : Dev nD) (V' : (b : Ref sig .tc) → Buf (Elt F) ((c : Thread nD τ).loc b))
    (h0 : (dat0 V c).arrAt 0 cfg0.N = V' main_v0) (h1 : (dat0 V c).arrAt 1 cfg0.N = V' main_v0)
    (h2 : (dat0 V c).arrAt 2 cfg0.N = V' main_v1) (h3 : (dat0 V c).arrAt 3 cfg0.N = V' main_v2)
    (h4 : (dat0 V c).arrAt 4 cfg0.N = V' main_v3_0) (h5 : (dat0 V c).arrAt 5 cfg0.N = V' main_v3_1) :
    (dat0 V c).arrays ((dat0 V c).arrAt · cfg0.N) ⊢ (Pipeline.arrBufs spec0 c V' : sProp 𝕄) := by
  rw [arrBufs0_eq, arrays0_eq, h0, h1, h2, h3, h4, h5]
  iintro ⟨H0l, H0r, H1, H2, H3, H4⟩
  isplitl [H0l H0r]
  · iapply (pointsTo_share (PosShare.mem_left_op_right fullShare)).2
    isplitl [H0l]; · iexact H0l
    iexact H0r
  isplitl [H1]; · iexact H1
  isplitl [H2]; · iexact H2
  isplitl [H3]; · iexact H3
  iexact H4

end Split

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Function.update (Function.update (W1 m ρ c) (Proc.devRef .tc main_v3_0) ((dat0 (V1 m ρ) c).arrAt 4 cfg0.N))
    (Proc.devRef .tc main_v3_1) ((dat0 (V1 m ρ) c).arrAt 5 cfg0.N)
theorem W2_v3_0 (c : Dev nD) : W2 m ρ c (Proc.devRef .tc main_v3_0) = (dat0 (V1 m ρ) c).arrAt 4 cfg0.N := by
  unfold W2
  rw [Function.update_of_ne (StableHlo.devRef_ne_of_ne (by decide)), Function.update_self]
theorem W2_v3_1 (c : Dev nD) : W2 m ρ c (Proc.devRef .tc main_v3_1) = (dat0 (V1 m ρ) c).arrAt 5 cfg0.N := by
  unfold W2
  rw [Function.update_self]
theorem W2_of_ne (c : Dev nD) (b : Ref sig .tc) (h0 : b ≠ main_v3_0) (h1 : b ≠ main_v3_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)

end Cert.KernelIdeal.Hand

end
-- ==== Proof.KI.Launch.lean ====
import proofs.«125195_j2516850835771_1_alg».proof.Proof.KI.Bounds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 1) → (pcfgs (F := F) p).Adm := fun p => (cfgs p).toPCfg_adm

def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

theorem exit_in (c : Dev nD) (w : Fin cfg0.W) (hw : (cfg0.win w).isOut = false) :
    (dat0 (V1 m ρ) c).arrAt w cfg0.N = V1 m ρ c (Pipeline.arrRef spec0 w) :=
  ((dat0 (V1 m ρ) c).arrAt_in w hw _).trans (A_eq0 (V1 m ρ) c w)

theorem unscopedRest_exit (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  refine bigSep_congr fun b hb => ?_
  have hb' : b ∉ Finset.univ.image (Pipeline.arrRef spec0) := (Finset.mem_sdiff.mp hb).2
  rw [show V2 m ρ c b = V1 m ρ c b from W2_of_ne m ρ c b
    (fun e => hb' (e ▸ Finset.mem_image.mpr ⟨4, Finset.mem_univ _, rfl⟩))
    (fun e => hb' (e ▸ Finset.mem_image.mpr ⟨5, Finset.mem_univ _, rfl⟩))]

set_option backward.isDefEq.respectTransparency.types false in

def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((dat0 (V1 m ρ) c).arrays ((dat0 (V1 m ρ) c).arrAt · 0) ∗ Pipeline.unscopedRest spec0 c (V1 m ρ c)) := by
      rw [Pipeline.unscopedBufs_split₀ cfgs 0 winFacts₀0.arr_unscoped c (V1 m ρ c)]
      exact sep_mono (arrays_split0 (V1 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m ρ) c)
    unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin : iprop((dat0 (V1 m ρ) c).arrays ((dat0 (V1 m ρ) c).arrAt · cfg0.N) ∗ Pipeline.unscopedRest spec0 c (V1 m ρ c))
        ⊢ (unscopedBufs c (V2 m ρ c) : sProp 𝕄) := by
      rw [Pipeline.unscopedBufs_split₀ cfgs 0 winFacts₀0.arr_unscoped c (V2 m ρ c), unscopedRest_exit m ρ c]
      refine sep_mono (arrays_join0 (V1 m ρ) c (V2 m ρ c) ?_ ?_ ?_ ?_ ?_ ?_) .rfl
      · exact (exit_in m ρ c 0 rfl).trans (W2_of_ne m ρ c main_v0 (by decide) (by decide)).symm
      · exact (exit_in m ρ c 1 rfl).trans (W2_of_ne m ρ c main_v0 (by decide) (by decide)).symm
      · exact (exit_in m ρ c 2 rfl).trans (W2_of_ne m ρ c main_v1 (by decide) (by decide)).symm
      · exact (exit_in m ρ c 3 rfl).trans (W2_of_ne m ρ c main_v2 (by decide) (by decide)).symm
      · exact (W2_v3_0 m ρ c).symm
      · exact (W2_v3_1 m ρ c).symm
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)) ]

theorem main_run (c : Dev nD) : main (F := F) c = Pipeline.Seg.run (segs m ρ) := (main_chain c).trans (by chain_rfl)

set_option backward.isDefEq.respectTransparency.types false in

/-- The whole program runs to the end without fault, and its arrays end at the values the host operations compute from the region's results. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.Entry.lean ====
import proofs.«125195_j2516850835771_1_alg».proof.Proof.KI.Bounds
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem entry_v1 (c : Dev nD) (r : Fin 8192) :
    (V1 m ρ c main_v1 : S8192x1.Idx → BitVec 32) (ix2 r 0) = (m ((c : Thread nD τ).loc main_arg1) : S8192.Idx → BitVec 32) (ix1 r) := by
  have e : (V1 m ρ c main_v1 : S8192x1.Idx → BitVec 32)
      = shapeCast S8192x1 (m ((c : Thread nD τ).loc main_arg1) : S8192.Idx → BitVec 32) shapeCasts_S8192_S8192x1 := by
    dsimp only [V1, W1, hostOps0]; after_results; rfl
  refine (congrFun e (ix2 r 0)).trans (shapeCast_apply _ _ _ (ix1 r) ?_)
  rw [Shape.rowMajor_val_two, Shape.rowMajor_val_one]
  show r.val = r.val * 1 + 0
  omega

theorem entry_v2 (c : Dev nD) (s : Fin 8192) :
    (V1 m ρ c main_v2 : S1x8192.Idx → BitVec 32) (ix2 0 s) = (m ((c : Thread nD τ).loc main_arg1) : S8192.Idx → BitVec 32) (ix1 s) := by
  have e : (V1 m ρ c main_v2 : S1x8192.Idx → BitVec 32)
      = shapeCast S1x8192 (m ((c : Thread nD τ).loc main_arg1) : S8192.Idx → BitVec 32) shapeCasts_S8192_S1x8192 := by
    dsimp only [V1, W1, hostOps0]; after_results; rfl
  refine (congrFun e (ix2 0 s)).trans (shapeCast_apply _ _ _ (ix1 s) ?_)
  rw [Shape.rowMajor_val_two, Shape.rowMajor_val_one]
  show s.val = 0 * 8192 + s.val
  omega

/-- At the region's entry the operands are the arguments re-laid: a change of format is the identity on the extended reals. -/
theorem entry_v0 (m : (ℓ : Loc nD τ sig) → Buf (Elt Ideal) ℓ) (ρ : Dev nD → PrngReg) (c : Dev nD) (r : Fin 8192) (k : Fin 256) :
    (V1 (F := Ideal) m ρ c main_v0 : S8192x256.Idx → EReal) (ix2 r k) = (m ((c : Thread nD τ).loc main_arg0) : S8192x256.Idx → EReal) (ix2 r k) := by
  have e : (V1 (F := Ideal) m ρ c main_v0 : S8192x256.Idx → EReal)
      = (truncf .bf16 (m ((c : Thread nD τ).loc main_arg0) : FVec Ideal S8192x256 .f32) bitsLt_bf16_f32 : FVec Ideal S8192x256 .bf16) := by
    dsimp only [V1, W1, hostOps0]; after_results
  exact (congrFun e (ix2 r k)).trans (ValueIdx.truncf_apply _ _ _)

/-- No host operation writes an argument. -/
theorem W6_main_arg0 (c : Dev nD) : W6 m ρ c (Proc.devRef .tc main_arg0) = m ((c : Thread nD τ).loc main_arg0) := by
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) := by
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

theorem W2_eq_exit_v3_0 (c : Dev nD) : V2 m ρ c main_v3_0 = (dat0 (V1 m ρ) c).arrAt 4 cfg0.N := W2_v3_0 m ρ c
theorem W2_eq_exit_v3_1 (c : Dev nD) : V2 m ρ c main_v3_1 = (dat0 (V1 m ρ) c).arrAt 5 cfg0.N := W2_v3_1 m ρ c

end Cert.KernelIdeal.Hand

end
-- ==== Proof.KI.AccumBlocks.lean ====
import proofs.«125195_j2516850835771_1_alg».proof.Proof.KI.Cases
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

open Idealize.ShloMosaic.ValueIdx

theorem idx_facts : ∀ t : Fin cfg0.N,
    win0_0.index t (0 : Fin 2) = t.val / 8 ∧ win0_0.index t (1 : Fin 2) = 0
  ∧ win0_1.index t (0 : Fin 2) = t.val % 8 ∧ win0_1.index t (1 : Fin 2) = 0
  ∧ win0_2.index t (0 : Fin 2) = t.val / 8 ∧ win0_2.index t (1 : Fin 2) = 0
  ∧ win0_3.index t (0 : Fin 2) = 0 ∧ win0_3.index t (1 : Fin 2) = t.val % 8
  ∧ win0_4.index t (0 : Fin 2) = t.val / 8 ∧ win0_4.index t (1 : Fin 2) = 0
  ∧ win0_5.index t (0 : Fin 2) = t.val / 8 ∧ win0_5.index t (1 : Fin 2) = 0
  ∧ ((grid0.coords t) 0).val = t.val / 8 ∧ ((grid0.coords t) 1).val = t.val % 8 :=
  (by decide +kernel : ∀ t : Fin grid0.N, _)

section Blocks
variable (V : (c : Dev nD) → (b : Ref sig .tc) → Buf (Elt F) ((c : Thread nD τ).loc b)) (c : Dev nD)

abbrev rowBlk (t : Fin cfg0.N) : Vec F S1024x256 .bf16 := iblk V c 0 t
abbrev colBlk (t : Fin cfg0.N) : Vec F S1024x256 .bf16 := iblk V c 1 t
abbrev rowLab (t : Fin cfg0.N) : Vec F S1024x1 .i32 := iblk V c 2 t
abbrev colLab (t : Fin cfg0.N) : Vec F S1x1024 .i32 := iblk V c 3 t

/-- Point t reads rows 1024·(t / 8) + p and columns 1024·(t % 8) + q. -/
theorem rowBlk_apply (t : Fin cfg0.N) (p : Fin 1024) (k : Fin 256) (r : Fin 8192) (hr : r.val = 1024 * (t.val / 8) + p.val) :
    rowBlk V c t (ix2 p k) = (V c main_v0 : Vec F S8192x256 .bf16) (ix2 r k) := by
  obtain ⟨e0, e1, -⟩ := idx_facts t
  unfold rowBlk iblk
  rw [View.read_apply]
  show V c main_v0 _ = V c main_v0 _
  congr 1
  funext a
  apply Fin.ext
  match a with
  | ⟨0, _⟩ => show win0_0.index t 0 * 1024 + 1 * p.val = r.val; rw [e0, hr]; omega
  | ⟨1, _⟩ => show win0_0.index t 1 * 256 + 1 * k.val = k.val; rw [e1]; omega

theorem colBlk_apply (t : Fin cfg0.N) (q : Fin 1024) (k : Fin 256) (s : Fin 8192) (hs : s.val = 1024 * (t.val % 8) + q.val) :
    colBlk V c t (ix2 q k) = (V c main_v0 : Vec F S8192x256 .bf16) (ix2 s k) := by
  obtain ⟨-, -, e0, e1, -⟩ := idx_facts t
  unfold colBlk iblk
  rw [View.read_apply]
  show V c main_v0 _ = V c main_v0 _
  congr 1
  funext a
  apply Fin.ext
  match a with
  | ⟨0, _⟩ => show win0_1.index t 0 * 1024 + 1 * q.val = s.val; rw [e0, hs]; omega
  | ⟨1, _⟩ => show win0_1.index t 1 * 256 + 1 * k.val = k.val; rw [e1]; omega

theorem rowLab_apply (t : Fin cfg0.N) (p : Fin 1024) (r : Fin 8192) (hr : r.val = 1024 * (t.val / 8) + p.val) :
    rowLab V c t (ix2 p 0) = (V c main_v1 : Vec F S8192x1 .i32) (ix2 r 0) := by
  obtain ⟨-, -, -, -, e0, e1, -⟩ := idx_facts t
  unfold rowLab iblk
  rw [View.read_apply]
  show V c main_v1 _ = V c main_v1 _
  congr 1
  funext a
  apply Fin.ext
  match a with
  | ⟨0, _⟩ => show win0_2.index t 0 * 1024 + 1 * p.val = r.val; rw [e0, hr]; omega
  | ⟨1, _⟩ => show win0_2.index t 1 * 1 + 1 * (0 : Fin 1).val = (0 : Fin 1).val; rw [e1]; rfl

theorem colLab_apply (t : Fin cfg0.N) (q : Fin 1024) (s : Fin 8192) (hs : s.val = 1024 * (t.val % 8) + q.val) :
    colLab V c t (ix2 0 q) = (V c main_v2 : Vec F S1x8192 .i32) (ix2 0 s) := by
  obtain ⟨-, -, -, -, -, -, e0, e1, -⟩ := idx_facts t
  unfold colLab iblk
  rw [View.read_apply]
  show V c main_v2 _ = V c main_v2 _
  congr 1
  funext a
  apply Fin.ext
  match a with
  | ⟨0, _⟩ => show win0_3.index t 0 * 1 + 1 * (0 : Fin 1).val = (0 : Fin 1).val; rw [e0]; rfl
  | ⟨1, _⟩ => show win0_3.index t 1 * 1024 + 1 * q.val = s.val; rw [e1, hs]; omega

end Blocks

end Cert.KernelIdeal.Hand

end
-- ==== Proof.KI.AccumCover.lean ====
import proofs.«125195_j2516850835771_1_alg».proof.Proof.KI.Frame
import proofs.«125195_j2516850835771_1_alg».proof.Proof.KI.AccumBlocks
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

theorem eq_ix2_col0 (y : S1024x1.Idx) : y = ix2 (y 0) 0 := by
  funext a
  match a with
  | ⟨0, _⟩ => rfl
  | ⟨1, _⟩ => exact Subsingleton.elim (α := Fin 1) _ _

theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3_0).slice (win0_4.rect t)).set ↔ _
  rw [View.set_slice_whole, Rect.mem_set_unit]
  exact Iff.rfl

theorem cover4 (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  have hN : cfg0.N = 64 := N_0
  obtain ⟨t, ht⟩ : ∃ t : Fin cfg0.N, t.val = 8 * ((i 0).val / 1024) + 7 := ⟨⟨8 * ((i 0).val / 1024) + 7, by rw [hN]; omega⟩, rfl⟩
  obtain ⟨-, -, -, -, -, -, -, -, e0, e1, -⟩ := idx_facts t
  refine ⟨t, (flush0_4 t).mpr (by omega), ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v3_1).slice (win0_5.rect t)).set ↔ _
  rw [View.set_slice_whole, Rect.mem_set_unit]
  exact Iff.rfl

theorem cover5 (i : S8192x1.Idx) : ∃ t : Fin cfg0.N, (cfg0.win 5).flush t = true ∧ i ∈ ((cfg0.win 5).blk t).view.set := by
  obtain ⟨t, hf, hm⟩ := cover4 i
  exact ⟨t, (flush0_5 t).mpr ((flush0_4 t).mp hf), (mem_blk5 t i).mpr ((mem_blk4 t i).mp hm)⟩

section Cover
variable (V : (c : Dev nD) → (b : Ref sig .tc) → Buf (Elt Ideal) ((c : Thread nD τ).loc b)) (c : Dev nD)

theorem point4_apply (g : Fin 8192 → EReal)
    (h : ∀ (t : Fin cfg0.N), t.val % 8 = 7 → ∀ (p : Fin 1024) (r : Fin 8192), r.val = 1024 * (t.val / 8) + p.val →
        ((outsAt0 (F := Ideal) V c t.val t.isLt).1 : S1024x1.Idx → EReal) (ix2 p 0) = g r)
    (t : Fin cfg0.N) (h7 : t.val % 8 = 7) (y : S1024x1.Idx) (r : Fin 8192) (hr : r.val = win0_4.index t (0 : Fin 2) * 1024 + 1 * (y 0).val) :
    ((outsAt0 (F := Ideal) V c t.val t.isLt).1 : S1024x1.Idx → EReal) y = g r := by
  obtain ⟨-, -, -, -, -, -, -, -, e0, e1, -⟩ := idx_facts t
  exact (congrArg ((outsAt0 (F := Ideal) V c t.val t.isLt).1 : S1024x1.Idx → EReal) (eq_ix2_col0 y)).trans
    (h t h7 (y 0) r (by rw [hr, e0]; omega))

theorem flushed4_eq (g : Fin 8192 → EReal)
    (h : ∀ (t : Fin cfg0.N), t.val % 8 = 7 → ∀ (p : Fin 1024) (r : Fin 8192), r.val = 1024 * (t.val / 8) + p.val →
        ((outsAt0 (F := Ideal) V c t.val t.isLt).1 : S1024x1.Idx → EReal) (ix2 p 0) = g r)
    (t : Fin cfg0.N) (hf : (cfg0.win 4).flush t = true) :
    (dat0 (F := Ideal) V c).flushed 4 t = ((cfg0.win 4).blk t).view.read (Elt Ideal) (fun y : S8192x1.Idx => g ⟨(y 0).val, idx2_lt0 y⟩) := by
  have h7 : t.val % 8 = 7 := (flush0_4 t).mp hf
  show (cfg0.win 4).cut (grid0.coords t) ((dat0 V c).after 4 t) = _
  rw [after0_4]
  funext y
  exact point4_apply V c g h t h7 y ⟨(((cfg0.win 4).blk t).view.emb y 0).val, idx2_lt0 _⟩ rfl

/-- The blocks written at column block 7 tile the result array. -/
theorem arr4_of_points (g : Fin 8192 → EReal)
    (h : ∀ (t : Fin cfg0.N), t.val % 8 = 7 → ∀ (p : Fin 1024) (r : Fin 8192), r.val = 1024 * (t.val / 8) + p.val →
        ((outsAt0 (F := Ideal) V c t.val t.isLt).1 : S1024x1.Idx → EReal) (ix2 p 0) = g r) :
    ((dat0 (F := Ideal) V c).arrAt 4 cfg0.N : S8192x1.Idx → EReal) = fun y => g ⟨(y 0).val, idx2_lt0 y⟩ :=
  (dat0 (F := Ideal) V c).arrAt_eq_of_cover 4 (fun y : S8192x1.Idx => g ⟨(y 0).val, idx2_lt0 y⟩) (fun t hf => flushed4_eq V c g h t hf) cover4

theorem point5_apply (g : Fin 8192 → EReal)
    (h : ∀ (t : Fin cfg0.N), t.val % 8 = 7 → ∀ (p : Fin 1024) (r : Fin 8192), r.val = 1024 * (t.val / 8) + p.val →
        ((outsAt0 (F := Ideal) V c t.val t.isLt).2.1 : S1024x1.Idx → EReal) (ix2 p 0) = g r)
    (t : Fin cfg0.N) (h7 : t.val % 8 = 7) (y : S1024x1.Idx) (r : Fin 8192) (hr : r.val = win0_5.index t (0 : Fin 2) * 1024 + 1 * (y 0).val) :
    ((outsAt0 (F := Ideal) V c t.val t.isLt).2.1 : S1024x1.Idx → EReal) y = g r := by
  obtain ⟨-, -, -, -, -, -, -, -, -, -, e0, e1, -⟩ := idx_facts t
  exact (congrArg ((outsAt0 (F := Ideal) V c t.val t.isLt).2.1 : S1024x1.Idx → EReal) (eq_ix2_col0 y)).trans
    (h t h7 (y 0) r (by rw [hr, e0]; omega))

theorem flushed5_eq (g : Fin 8192 → EReal)
    (h : ∀ (t : Fin cfg0.N), t.val % 8 = 7 → ∀ (p : Fin 1024) (r : Fin 8192), r.val = 1024 * (t.val / 8) + p.val →
        ((outsAt0 (F := Ideal) V c t.val t.isLt).2.1 : S1024x1.Idx → EReal) (ix2 p 0) = g r)
    (t : Fin cfg0.N) (hf : (cfg0.win 5).flush t = true) :
    (dat0 (F := Ideal) V c).flushed 5 t = ((cfg0.win 5).blk t).view.read (Elt Ideal) (fun y : S8192x1.Idx => g ⟨(y 0).val, idx2_lt0 y⟩) := by
  have h7 : t.val % 8 = 7 := (flush0_5 t).mp hf
  show (cfg0.win 5).cut (grid0.coords t) ((dat0 V c).after 5 t) = _
  rw [after0_5]
  funext y
  exact point5_apply V c g h t h7 y ⟨(((cfg0.win 5).blk t).view.emb y 0).val, idx2_lt0 _⟩ rfl

theorem arr5_of_points (g : Fin 8192 → EReal)
    (h : ∀ (t : Fin cfg0.N), t.val % 8 = 7 → ∀ (p : Fin 1024) (r : Fin 8192), r.val = 1024 * (t.val / 8) + p.val →
        ((outsAt0 (F := Ideal) V c t.val t.isLt).2.1 : S1024x1.Idx → EReal) (ix2 p 0) = g r) :
    ((dat0 (F := Ideal) V c).arrAt 5 cfg0.N : S8192x1.Idx → EReal) = fun y => g ⟨(y 0).val, idx2_lt0 y⟩ :=
  (dat0 (F := Ideal) V c).arrAt_eq_of_cover 5 (fun y : S8192x1.Idx => g ⟨(y 0).val, idx2_lt0 y⟩) (fun t hf => flushed5_eq V c g h t hf) cover5

end Cover

end Cert.KernelIdeal.Hand

end
-- ==== Proof.KI.Pieces.lean ====
import proofs.«125195_j2516850835771_1_alg».proof.Proof.KI.Outs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- One block step of each statistic, as a pure function of the blocks. -/
def stepM (x0 x1 : Vec F S1024x256 .bf16) (m : Vec F S1024x1 .f32) : Vec F S1024x1 .f32 := k0_pay11 (k0_pay7 x0 x1 m)

def stepL (x0 x1 : Vec F S1024x256 .bf16) (m l : Vec F S1024x1 .f32) : Vec F S1024x1 .f32 := k0_pay8 (k0_pay5 x0 x1) (k0_pay7 x0 x1 m) m l

def stepP (i : grid0.Coords) (x0 x1 : Vec F S1024x256 .bf16) (x2 : Vec F S1024x1 .i32) (x3 : Vec F S1x1024 .i32) (P : Vec F S1024x1 .f32) : Vec F S1024x1 .f32 :=
  k0_pay9 (k0_pay5 x0 x1) (k0_pay6 i x2 x3) P

def stepN (i : grid0.Coords) (x2 : Vec F S1024x1 .i32) (x3 : Vec F S1x1024 .i32) (N : Vec F S1024x1 .f32) : Vec F S1024x1 .f32 :=
  k0_pay10 (k0_pay6 i x2 x3) N

def outLoss (m l P N : Vec F S1024x1 .f32) : Vec F S1024x1 .f32 := k0_pay12 l P m N N N

theorem hz0 : (![0, 0] : Fin 2 → Nat) = fun _ => 0 := funext fun a => by fin_cases a <;> rfl

/-- What a case leaves in a statistic is that block step. -/
theorem sout0_A_0_eq (c : Dev nD) (a : BodyArgs) (hc0 : cond0_0 a.i) (hc1 : ¬cond0_1 a.i) (x0 : Vec F S1024x256 .bf16) (x1 : Vec F S1024x256 .bf16) (x2 : Vec F S1024x1 .i32) (x3 : Vec F S1x1024 .i32) :
    sout0_A_0 c a hc0 hc1 x0 x1 x2 x3 = stepM x0 x1 k0_pay1 := by
  unfold sout0_A_0
  rw [View.read_writes_eq_canon _ _ _ (scover0_A_0 c a hc0 hc1 x0 x1 x2 x3)]
  unfold runA kernelRun0_A
  dsimp only
  sl_unfold_words
  rw [View.canon_cons_unit_zero (S := S1024x1) hz0]
  unfold stepM k0_pay11
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem sout0_A_1_eq (c : Dev nD) (a : BodyArgs) (hc0 : cond0_0 a.i) (hc1 : ¬cond0_1 a.i) (x0 : Vec F S1024x256 .bf16) (x1 : Vec F S1024x256 .bf16) (x2 : Vec F S1024x1 .i32) (x3 : Vec F S1x1024 .i32) :
    sout0_A_1 c a hc0 hc1 x0 x1 x2 x3 = stepL x0 x1 k0_pay1 k0_pay2 := by
  unfold sout0_A_1
  rw [View.read_writes_eq_canon _ _ _ (scover0_A_1 c a hc0 hc1 x0 x1 x2 x3)]
  unfold runA kernelRun0_A
  dsimp only
  sl_unfold_words
  rw [View.canon_cons_unit_zero (S := S1024x1) hz0]
  unfold stepL k0_pay8
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem sout0_A_2_eq (c : Dev nD) (a : BodyArgs) (hc0 : cond0_0 a.i) (hc1 : ¬cond0_1 a.i) (x0 : Vec F S1024x256 .bf16) (x1 : Vec F S1024x256 .bf16) (x2 : Vec F S1024x1 .i32) (x3 : Vec F S1x1024 .i32) :
    sout0_A_2 c a hc0 hc1 x0 x1 x2 x3 = stepP a.i x0 x1 x2 x3 k0_pay3 := by
  unfold sout0_A_2
  rw [View.read_writes_eq_canon _ _ _ (scover0_A_2 c a hc0 hc1 x0 x1 x2 x3)]
  unfold runA kernelRun0_A
  dsimp only
  sl_unfold_words
  rw [View.canon_cons_unit_zero (S := S1024x1) hz0]
  unfold stepP k0_pay9
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem sout0_A_3_eq (c : Dev nD) (a : BodyArgs) (hc0 : cond0_0 a.i) (hc1 : ¬cond0_1 a.i) (x0 : Vec F S1024x256 .bf16) (x1 : Vec F S1024x256 .bf16) (x2 : Vec F S1024x1 .i32) (x3 : Vec F S1x1024 .i32) :
    sout0_A_3 c a hc0 hc1 x0 x1 x2 x3 = stepN a.i x2 x3 k0_pay4 := by
  unfold sout0_A_3
  rw [View.read_writes_eq_canon _ _ _ (scover0_A_3 c a hc0 hc1 x0 x1 x2 x3)]
  unfold runA kernelRun0_A
  dsimp only
  sl_unfold_words
  rw [View.canon_cons_unit_zero (S := S1024x1) hz0]
  unfold stepN k0_pay10
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem sout0_B_0_eq (c : Dev nD) (a : BodyArgs) (hc0 : ¬cond0_0 a.i) (hc1 : ¬cond0_1 a.i) (x0 : Vec F S1024x256 .bf16) (x1 : Vec F S1024x256 .bf16) (x2 : Vec F S1024x1 .i32) (x3 : Vec F S1x1024 .i32) (xs0 xs1 xs2 xs3 : Vec F S1024x1 .f32) :
    sout0_B_0 c a hc0 hc1 x0 x1 x2 x3 xs0 xs1 xs2 xs3 = stepM x0 x1 xs0 := by
  unfold sout0_B_0
  rw [View.read_writes_eq_canon _ _ _ (scover0_B_0 c a hc0 hc1 x0 x1 x2 x3 xs0 xs1 xs2 xs3)]
  unfold runB kernelRun0_B
  dsimp only
  sl_unfold_words
  rw [View.canon_unit_zero (S := S1024x1) hz0]
  unfold stepM k0_pay11
  simp only [View.readAt_eq_ld, a.harg2.read_unread, a.harg3.read_unread, a.harg8.read_unread, View.ld_unit_zero (S := S1024x1) hz0, View.ld_unit_zero (S := S1024x256) hz0, shapeCast_self]
theorem sout0_B_1_eq (c : Dev nD) (a : BodyArgs) (hc0 : ¬cond0_0 a.i) (hc1 : ¬cond0_1 a.i) (x0 : Vec F S1024x256 .bf16) (x1 : Vec F S1024x256 .bf16) (x2 : Vec F S1024x1 .i32) (x3 : Vec F S1x1024 .i32) (xs0 xs1 xs2 xs3 : Vec F S1024x1 .f32) :
    sout0_B_1 c a hc0 hc1 x0 x1 x2 x3 xs0 xs1 xs2 xs3 = stepL x0 x1 xs0 xs1 := by
  unfold sout0_B_1
  rw [View.read_writes_eq_canon _ _ _ (scover0_B_1 c a hc0 hc1 x0 x1 x2 x3 xs0 xs1 xs2 xs3)]
  unfold runB kernelRun0_B
  dsimp only
  sl_unfold_words
  rw [View.canon_unit_zero (S := S1024x1) hz0]
  unfold stepL k0_pay8
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, shapeCast_self]
theorem sout0_B_2_eq (c : Dev nD) (a : BodyArgs) (hc0 : ¬cond0_0 a.i) (hc1 : ¬cond0_1 a.i) (x0 : Vec F S1024x256 .bf16) (x1 : Vec F S1024x256 .bf16) (x2 : Vec F S1024x1 .i32) (x3 : Vec F S1x1024 .i32) (xs0 xs1 xs2 xs3 : Vec F S1024x1 .f32) :
    sout0_B_2 c a hc0 hc1 x0 x1 x2 x3 xs0 xs1 xs2 xs3 = stepP a.i x0 x1 x2 x3 xs2 := by
  unfold sout0_B_2
  rw [View.read_writes_eq_canon _ _ _ (scover0_B_2 c a hc0 hc1 x0 x1 x2 x3 xs0 xs1 xs2 xs3)]
  unfold runB kernelRun0_B
  dsimp only
  sl_unfold_words
  rw [View.canon_unit_zero (S := S1024x1) hz0]
  unfold stepP k0_pay9
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, shapeCast_self]
theorem sout0_B_3_eq (c : Dev nD) (a : BodyArgs) (hc0 : ¬cond0_0 a.i) (hc1 : ¬cond0_1 a.i) (x0 : Vec F S1024x256 .bf16) (x1 : Vec F S1024x256 .bf16) (x2 : Vec F S1024x1 .i32) (x3 : Vec F S1x1024 .i32) (xs0 xs1 xs2 xs3 : Vec F S1024x1 .f32) :
    sout0_B_3 c a hc0 hc1 x0 x1 x2 x3 xs0 xs1 xs2 xs3 = stepN a.i x2 x3 xs3 := by
  unfold sout0_B_3
  rw [View.read_writes_eq_canon _ _ _ (scover0_B_3 c a hc0 hc1 x0 x1 x2 x3 xs0 xs1 xs2 xs3)]
  unfold runB kernelRun0_B
  dsimp only
  sl_unfold_words
  rw [View.canon_unit_zero (S := S1024x1) hz0]
  unfold stepN k0_pay10
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, shapeCast_self]
theorem sout0_C_0_eq (c : Dev nD) (a : BodyArgs) (hc0 : ¬cond0_0 a.i) (hc1 : cond0_1 a.i) (x0 : Vec F S1024x256 .bf16) (x1 : Vec F S1024x256 .bf16) (x2 : Vec F S1024x1 .i32) (x3 : Vec F S1x1024 .i32) (xs0 xs1 xs2 xs3 : Vec F S1024x1 .f32) :
    sout0_C_0 c a hc0 hc1 x0 x1 x2 x3 xs0 xs1 xs2 xs3 = stepM x0 x1 xs0 := by
  unfold sout0_C_0
  rw [View.read_writes_eq_canon _ _ _ (scover0_C_0 c a hc0 hc1 x0 x1 x2 x3 xs0 xs1 xs2 xs3)]
  unfold runC kernelRun0_C
  dsimp only
  sl_unfold_words
  rw [View.canon_unit_zero (S := S1024x1) hz0]
  unfold stepM k0_pay11
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem sout0_C_1_eq (c : Dev nD) (a : BodyArgs) (hc0 : ¬cond0_0 a.i) (hc1 : cond0_1 a.i) (x0 : Vec F S1024x256 .bf16) (x1 : Vec F S1024x256 .bf16) (x2 : Vec F S1024x1 .i32) (x3 : Vec F S1x1024 .i32) (xs0 xs1 xs2 xs3 : Vec F S1024x1 .f32) :
    sout0_C_1 c a hc0 hc1 x0 x1 x2 x3 xs0 xs1 xs2 xs3 = stepL x0 x1 xs0 xs1 := by
  unfold sout0_C_1
  rw [View.read_writes_eq_canon _ _ _ (scover0_C_1 c a hc0 hc1 x0 x1 x2 x3 xs0 xs1 xs2 xs3)]
  unfold runC kernelRun0_C
  dsimp only
  sl_unfold_words
  rw [View.canon_unit_zero (S := S1024x1) hz0]
  unfold stepL k0_pay8
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem sout0_C_2_eq (c : Dev nD) (a : BodyArgs) (hc0 : ¬cond0_0 a.i) (hc1 : cond0_1 a.i) (x0 : Vec F S1024x256 .bf16) (x1 : Vec F S1024x256 .bf16) (x2 : Vec F S1024x1 .i32) (x3 : Vec F S1x1024 .i32) (xs0 xs1 xs2 xs3 : Vec F S1024x1 .f32) :
    sout0_C_2 c a hc0 hc1 x0 x1 x2 x3 xs0 xs1 xs2 xs3 = stepP a.i x0 x1 x2 x3 xs2 := by
  unfold sout0_C_2
  rw [View.read_writes_eq_canon _ _ _ (scover0_C_2 c a hc0 hc1 x0 x1 x2 x3 xs0 xs1 xs2 xs3)]
  unfold runC kernelRun0_C
  dsimp only
  sl_unfold_words
  rw [View.canon_unit_zero (S := S1024x1) hz0]
  unfold stepP k0_pay9
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem sout0_C_3_eq (c : Dev nD) (a : BodyArgs) (hc0 : ¬cond0_0 a.i) (hc1 : cond0_1 a.i) (x0 : Vec F S1024x256 .bf16) (x1 : Vec F S1024x256 .bf16) (x2 : Vec F S1024x1 .i32) (x3 : Vec F S1x1024 .i32) (xs0 xs1 xs2 xs3 : Vec F S1024x1 .f32) :
    sout0_C_3 c a hc0 hc1 x0 x1 x2 x3 xs0 xs1 xs2 xs3 = stepN a.i x2 x3 xs3 := by
  unfold sout0_C_3
  rw [View.read_writes_eq_canon _ _ _ (scover0_C_3 c a hc0 hc1 x0 x1 x2 x3 xs0 xs1 xs2 xs3)]
  unfold runC kernelRun0_C
  dsimp only
  sl_unfold_words
  rw [View.canon_unit_zero (S := S1024x1) hz0]
  unfold stepN k0_pay10
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem out0_C_4_eq (c : Dev nD) (a : BodyArgs) (hc0 : ¬cond0_0 a.i) (hc1 : cond0_1 a.i) (x0 : Vec F S1024x256 .bf16) (x1 : Vec F S1024x256 .bf16) (x2 : Vec F S1024x1 .i32) (x3 : Vec F S1x1024 .i32) (xs0 xs1 xs2 xs3 : Vec F S1024x1 .f32) :
    out0_C_4 c a hc0 hc1 x0 x1 x2 x3 xs0 xs1 xs2 xs3 = outLoss (stepM x0 x1 xs0) (stepL x0 x1 xs0 xs1) (stepP a.i x0 x1 x2 x3 xs2) (stepN a.i x2 x3 xs3) := by
  unfold out0_C_4
  rw [View.read_writes_eq_canon _ _ _ (cover0_C_4 c a hc0 hc1 x0 x1 x2 x3 xs0 xs1 xs2 xs3)]
  unfold runC kernelRun0_C
  dsimp only
  sl_unfold_words
  rw [View.canon_unit_zero (S := S1024x1) hz0]
  unfold outLoss stepM stepL stepP stepN k0_pay12 k0_pay11 k0_pay8 k0_pay9 k0_pay10
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]
theorem out0_C_5_eq (c : Dev nD) (a : BodyArgs) (hc0 : ¬cond0_0 a.i) (hc1 : cond0_1 a.i) (x0 : Vec F S1024x256 .bf16) (x1 : Vec F S1024x256 .bf16) (x2 : Vec F S1024x1 .i32) (x3 : Vec F S1x1024 .i32) (xs0 xs1 xs2 xs3 : Vec F S1024x1 .f32) :
    out0_C_5 c a hc0 hc1 x0 x1 x2 x3 xs0 xs1 xs2 xs3 = stepN a.i x2 x3 xs3 := by
  unfold out0_C_5
  rw [View.read_writes_eq_canon _ _ _ (cover0_C_5 c a hc0 hc1 x0 x1 x2 x3 xs0 xs1 xs2 xs3)]
  unfold runC kernelRun0_C
  dsimp only
  sl_unfold_words
  rw [View.canon_unit_zero (S := S1024x1) hz0]
  unfold stepN k0_pay10
  simp only [View.readAt_eq_ld, a.harg2.read_unread, a.harg3.read_unread, a.harg4.read_unread, a.harg5.read_unread, a.harg8.read_unread, a.harg9.read_unread, a.harg10.read_unread, a.harg11.read_unread, View.ld_unit_zero (S := S1024x1) hz0, View.ld_unit_zero (S := S1024x256) hz0, View.ld_unit_zero (S := S1x1024) hz0, View.readCov_unit_zero (S := S1024x1) _ hz0, shapeCast_self]

end Cert.KernelIdeal.Hand

end
-- ==== Proof.Spec.lean ====
import Idealize.ShloMosaic.PureOps.Ideal
import Idealize.ShloMosaic.PureOps.Ideal.Laws

noncomputable section

namespace Cert.Spec

open Idealize.ShloMosaic

/-- The exact reciprocal of the reference's temperature. -/
def κ : EReal := ((134217728 / 9395241 : ℝ) : EReal)

def eps : EReal := Ideal.ofBits .f32 0x3089705F#32

variable (x : Fin 8192 → Fin 256 → EReal) (lab : Fin 8192 → BitVec 32)

/-- The scaled inner product of rows r and s. -/
def sim (r s : Fin 8192) : EReal := (∑ k : Fin 256, x r k * x s k) * κ

def rowMax (r : Fin 8192) : EReal := (Finset.univ : Finset (Fin 8192)).fold max ⊥ (fun s => sim x r s)

/-- The row's normaliser, shifted by the row's maximum. -/
def rowL (r : Fin 8192) : EReal := ∑ s : Fin 8192, Ideal.exp (sim x r s - rowMax x r)

/-- Positive pairs: equal labels, off the diagonal. -/
def mask (r s : Fin 8192) : EReal := if lab s = lab r ∧ r ≠ s then 1 else 0

def npos (r : Fin 8192) : EReal := ∑ s : Fin 8192, mask lab r s

def logProb (r s : Fin 8192) : EReal := (sim x r s - rowMax x r) - Ideal.log (rowL x r + eps)

/-- The row's loss: minus the mean log-probability of its positives. -/
def loss (r : Fin 8192) : EReal := Ideal.div (-(∑ s : Fin 8192, mask lab r s * logProb x r s)) (max 1 (npos lab r))

def cnt : EReal := ∑ r : Fin 8192, (if 0 < npos lab r then (1 : EReal) else 0)

def tot : EReal := ∑ r : Fin 8192, (if 0 < npos lab r then loss x lab r else 0)

/-- The mean loss over the rows that have a positive. -/
def result : EReal := if 0 < cnt lab then Ideal.div (tot x lab) (max (cnt lab) 1) else 0

end Cert.Spec

end
-- ==== Proof.KI.Payloads.lean ====
import proofs.«125195_j2516850835771_1_alg».proof.Proof.KI.Pieces
import proofs.«125195_j2516850835771_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

theorem named_inv_temp : Named.named (F := Ideal) Cert.KernelIdeal.κ "inv_temp" (φ := .f32) 0x41649249#32 = Cert.Spec.κ := by
  unfold Cert.Spec.κ
  exact IdealRules.named_const.ideal_named_scalar _ _ _ _ rfl

theorem ofBits_neg_inf_f32 : Ideal.ofBits .f32 0xFF800000#32 = ⊥ := by simp [Ideal.ofBits, Ideal.ieee]

theorem pay1_apply (y : S1024x1.Idx) : (k0_pay1 (F := Ideal) : S1024x1.Idx → EReal) y = ⊥ := by
  unfold k0_pay1
  rw [shapeCast_self]
  exact ofBits_neg_inf_f32
theorem pay2_apply (y : S1024x1.Idx) : (k0_pay2 (F := Ideal) : S1024x1.Idx → EReal) y = 0 := by
  unfold k0_pay2
  rw [shapeCast_self]
  exact Ideal.ofBits_zero_f32
theorem pay3_apply (y : S1024x1.Idx) : (k0_pay3 (F := Ideal) : S1024x1.Idx → EReal) y = 0 := pay2_apply y
theorem pay4_apply (y : S1024x1.Idx) : (k0_pay4 (F := Ideal) : S1024x1.Idx → EReal) y = 0 := pay2_apply y

theorem lhs_dot_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_dot_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_dot_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_dot_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The similarity block at (p, q). -/
theorem pay5_apply (x0 x1 : S1024x256.Idx → EReal) (p q : Fin 1024) :
    (k0_pay5 (F := Ideal) x0 x1 : S1024x1024.Idx → EReal) (ix2 p q) = (∑ k : Fin 256, x0 (ix2 p k) * x1 (ix2 q k)) * Cert.Spec.κ := by
  unfold k0_pay5
  rw [shapeCast_self, shapeCast_self]
  refine congrArg₂ (· * ·) ?_ named_inv_temp
  refine (Ideal.matmul_constant_zero_apply dot_S1024x256_S256x1024_S1024x1024_1_0_0_1_n_n none x0 _ (ix2 p q)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k := funext fun a => Fin.ext (by
    match a with
    | ⟨0, _⟩ => exact lhs_dot_0 _ _
    | ⟨1, _⟩ => exact (lhs_dot_1 _ _).trans hk)
  have er : transpose S256x1024 [1, 0] x1 transposes_S1024x256_p1_0_S256x1024 (dot_S1024x256_S256x1024_S1024x1024_1_0_0_1_n_n.rhsIdx (ix2 p q) ((contrEquiv1 dot_S1024x256_S256x1024_S1024x1024_1_0_0_1_n_n 256 rfl rfl).symm k)) = x1 (ix2 q k) :=
    transpose_apply [1, 0] x1 transposes_S1024x256_p1_0_S256x1024 _ (ix2 q k) (fun b => by
      match b with
      | ⟨0, _⟩ => exact ((rhs_dot_0 (ix2 p q) _).trans hk).symm
      | ⟨1, _⟩ => exact (rhs_dot_1 (ix2 p q) _).symm)
  rw [el, er]

theorem ofNat32_inj {m n : ℕ} (hm : m < 2 ^ 32) (hn : n < 2 ^ 32) : BitVec.ofNat 32 m = BitVec.ofNat 32 n ↔ m = n := by
  constructor
  · intro h
    have := congrArg BitVec.toNat h
    rw [BitVec.toNat_ofNat, BitVec.toNat_ofNat, Nat.mod_eq_of_lt hm, Nat.mod_eq_of_lt hn] at this
    exact this
  · intro h; rw [h]

theorem globalIdx_word (r p : ℕ) (hr : r < 8) (hp : p < 1024) :
    IntOp.addi (Scalar.muli (BitVec.ofNat 32 r) 1024#32) (BitVec.ofNat 32 p) = BitVec.ofNat 32 (1024 * r + p) := by
  apply BitVec.eq_of_toNat_eq
  show ((BitVec.ofNat 32 r * 1024#32) + BitVec.ofNat 32 p).toNat = _
  rw [BitVec.toNat_add, BitVec.toNat_mul, BitVec.toNat_ofNat, BitVec.toNat_ofNat, BitVec.toNat_ofNat]
  show ((r % 2 ^ 32 * (1024 % 2 ^ 32)) % 2 ^ 32 + p % 2 ^ 32) % 2 ^ 32 = (1024 * r + p) % 2 ^ 32
  omega

/-- Global indices stay below 2^32, so comparing their words compares the numbers. -/
theorem mask_bit {α : Type} (a b : BitVec 32) (r c p q : ℕ) (hr : r < 8) (hc : c < 8) (hp : p < 1024) (hq : q < 1024) (X Y : α) :
    Scalar.select (IntOp.andi (IntOp.cmpi .eq a b)
        (IntOp.cmpi .ne (IntOp.addi (Scalar.muli (BitVec.ofNat 32 r) 1024#32) (BitVec.ofNat 32 p))
          (IntOp.addi (Scalar.muli (BitVec.ofNat 32 c) 1024#32) (BitVec.ofNat 32 q)))) X Y
      = if a = b ∧ 1024 * r + p ≠ 1024 * c + q then X else Y := by
  rw [globalIdx_word r p hr hp, globalIdx_word c q hc hq]
  have hne : IntOp.cmpi .ne (BitVec.ofNat 32 (1024 * r + p)) (BitVec.ofNat 32 (1024 * c + q)) = 1#1 ↔ 1024 * r + p ≠ 1024 * c + q := by
    rw [IntOp.cmpi_ne, Ne, ofNat32_inj (by omega) (by omega)]
  by_cases h : a = b ∧ 1024 * r + p ≠ 1024 * c + q
  · rw [if_pos h, IntOp.andi_eq_one.2 ⟨IntOp.cmpi_eq.2 h.1, hne.2 h.2⟩]
    exact select_one X Y
  · rw [if_neg h]
    have h0 : IntOp.andi (IntOp.cmpi .eq a b) (IntOp.cmpi .ne (BitVec.ofNat 32 (1024 * r + p)) (BitVec.ofNat 32 (1024 * c + q))) = 0#1 :=
      eq_zero_of_ne_one (fun h1 => h ⟨IntOp.cmpi_eq.1 (IntOp.andi_eq_one.1 h1).1, hne.1 (IntOp.andi_eq_one.1 h1).2⟩)
    rw [h0]
    exact select_zero X Y

theorem broadcastTo_col_apply {α : Type} (v : S1024x1.Idx → α) (p q : Fin 1024) :
    broadcastTo S1024x1024 v broadcasts_S1024x1_S1024x1024 (ix2 p q) = v (ix2 p 0) :=
  broadcastTo_apply v broadcasts_S1024x1_S1024x1024 (ix2 p q) (ix2 p 0) (fun ax => by
    match ax with
    | ⟨0, _⟩ => rfl
    | ⟨1, _⟩ => rfl)

theorem broadcastTo_row_apply {α : Type} (v : S1x1024.Idx → α) (p q : Fin 1024) :
    broadcastTo S1024x1024 v broadcasts_S1x1024_S1024x1024 (ix2 p q) = v (ix2 0 q) :=
  broadcastTo_apply v broadcasts_S1x1024_S1024x1024 (ix2 p q) (ix2 0 q) (fun ax => by
    match ax with
    | ⟨0, _⟩ => rfl
    | ⟨1, _⟩ => rfl)

/-- The mask block at (p, q): equal labels, different global indices. -/
theorem pay6_apply (i : grid0.Coords) (x2 : S1024x1.Idx → BitVec 32) (x3 : S1x1024.Idx → BitVec 32) (p q : Fin 1024) :
    (k0_pay6 (F := Ideal) i x2 x3 : S1024x1024.Idx → EReal) (ix2 p q)
      = if x2 (ix2 p 0) = x3 (ix2 0 q) ∧ 1024 * (i 0).val + p.val ≠ 1024 * (i 1).val + q.val then 1 else 0 := by
  unfold k0_pay6
  show Scalar.select (IntOp.andi
      (IntOp.cmpi .eq (broadcastTo S1024x1024 (shapeCast S1024x1 x2 shapeCasts_S1024x1_S1024x1) broadcasts_S1024x1_S1024x1024 (ix2 p q))
        (broadcastTo S1024x1024 (shapeCast S1x1024 x3 shapeCasts_S1x1024_S1x1024) broadcasts_S1x1024_S1024x1024 (ix2 p q)))
      (IntOp.cmpi .ne
        (broadcastTo S1024x1024 (addi (broadcast S1024x1 (Scalar.muli (BitVec.ofNat 32 (i 0).val) 1024#32)) (iota .tc S1024x1 32 [0] iota_S1024x1_d0_w32)) broadcasts_S1024x1_S1024x1024 (ix2 p q))
        (broadcastTo S1024x1024 (addi (broadcast S1x1024 (Scalar.muli (BitVec.ofNat 32 (i 1).val) 1024#32)) (iota .tc S1x1024 32 [1] iota_S1x1024_d1_w32)) broadcasts_S1x1024_S1024x1024 (ix2 p q))))
      (Ideal.ofBits .f32 0x3F800000#32) (Ideal.ofBits .f32 0x00000000#32) = _
  rw [shapeCast_self, shapeCast_self, broadcastTo_col_apply, broadcastTo_row_apply, broadcastTo_col_apply, broadcastTo_row_apply,
    Ideal.ofBits_one_f32, Ideal.ofBits_zero_f32]
  show Scalar.select (IntOp.andi (IntOp.cmpi .eq (x2 (ix2 p 0)) (x3 (ix2 0 q)))
      (IntOp.cmpi .ne
        (IntOp.addi (Scalar.muli (BitVec.ofNat 32 (i 0).val) 1024#32) (iota .tc S1024x1 32 [0] iota_S1024x1_d0_w32 (ix2 p 0)))
        (IntOp.addi (Scalar.muli (BitVec.ofNat 32 (i 1).val) 1024#32) (iota .tc S1x1024 32 [1] iota_S1x1024_d1_w32 (ix2 0 q)))))
      (1 : EReal) 0 = _
  rw [iota_single_apply, iota_single_apply]
  exact mask_bit _ _ _ _ _ _ (i 0).isLt (i 1).isLt p.isLt q.isLt 1 0

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowSum_apply (src : S1024x1024.Idx → EReal) (p : Fin 1024) :
    (multiReduction (F := Ideal) (φ := .f32) .add [1] S1024 src 0x00000000#32 reduces_S1024x1024_S1024 (.inl rfl) rfl) (ix1 p)
      = ∑ q : Fin 1024, src (ix2 p q) := by
  refine (Ideal.multiReduction_add_single (φ := .f32) src 0x00000000#32 reduces_S1024x1024_S1024 (.inl rfl) rfl (ix1 p)).trans ?_
  refine Finset.sum_congr rfl fun q _ => congrArg src ?_
  funext a
  match a with
  | ⟨0, _⟩ => rfl
  | ⟨1, _⟩ => rfl

theorem rowMax_apply (src : S1024x1024.Idx → EReal) (p : Fin 1024) :
    (multiReduction (F := Ideal) (φ := .f32) .maximumf [1] S1024 src 0xFF800000#32 reduces_S1024x1024_S1024 (.inl rfl) rfl) (ix1 p)
      = (Finset.univ : Finset (Fin 1024)).fold max ⊥ (fun q => src (ix2 p q)) := by
  refine (Ideal.multiReduction_maximumf_single (φ := .f32) src 0xFF800000#32 reduces_S1024x1024_S1024 (.inl rfl) rfl (ix1 p)).trans ?_
  have e : (src ∘ reduces_S1024x1024_S1024.lift (ix1 p)) = fun q : Fin 1024 => src (ix2 p q) := by
    funext q
    refine congrArg src ?_
    funext a
    match a with
    | ⟨0, _⟩ => rfl
    | ⟨1, _⟩ => rfl
  rw [e]
  exact congrArg (fun b => (Finset.univ : Finset (Fin 1024)).fold max b (fun q => src (ix2 p q))) ofBits_neg_inf_f32

theorem pay7_apply (x0 x1 : S1024x256.Idx → EReal) (m : S1024x1.Idx → EReal) (p : Fin 1024) :
    (k0_pay7 (F := Ideal) x0 x1 m : S1024x1.Idx → EReal) (ix2 p 0)
      = max (m (ix2 p 0)) ((Finset.univ : Finset (Fin 1024)).fold max ⊥ (fun q => (k0_pay5 (F := Ideal) x0 x1 : S1024x1024.Idx → EReal) (ix2 p q))) := by
  unfold k0_pay7
  refine congrArg (max (m (ix2 p 0))) ?_
  refine (shapeCast_a_a1_apply _ shapeCasts_S1024_S1024x1 p 0).trans ?_
  exact rowMax_apply _ p

theorem pay8_apply (a : S1024x1024.Idx → EReal) (mn mo lo : S1024x1.Idx → EReal) (p : Fin 1024) :
    (k0_pay8 (F := Ideal) a mn mo lo : S1024x1.Idx → EReal) (ix2 p 0)
      = Ideal.exp (mo (ix2 p 0) - mn (ix2 p 0)) * lo (ix2 p 0) + ∑ q : Fin 1024, Ideal.exp (a (ix2 p q) - mn (ix2 p 0)) := by
  unfold k0_pay8
  rw [shapeCast_self]
  refine congrArg (Ideal.exp (mo (ix2 p 0) - mn (ix2 p 0)) * lo (ix2 p 0) + ·) ?_
  refine (shapeCast_a_a1_apply _ shapeCasts_S1024_S1024x1 p 0).trans ?_
  refine (rowSum_apply _ p).trans ?_
  refine Finset.sum_congr rfl fun q _ => ?_
  refine congrArg (fun t => Ideal.exp (a (ix2 p q) - t)) ?_
  exact broadcastTo_apply mn broadcasts_S1024x1_S1024x1024 (ix2 p q) (ix2 p 0) (fun ax => by
    match ax with
    | ⟨0, _⟩ => rfl
    | ⟨1, _⟩ => rfl)

theorem pay9_apply (a w : S1024x1024.Idx → EReal) (P : S1024x1.Idx → EReal) (p : Fin 1024) :
    (k0_pay9 (F := Ideal) a w P : S1024x1.Idx → EReal) (ix2 p 0) = P (ix2 p 0) + ∑ q : Fin 1024, w (ix2 p q) * a (ix2 p q) := by
  unfold k0_pay9
  rw [shapeCast_self]
  refine congrArg (P (ix2 p 0) + ·) ?_
  refine (shapeCast_a_a1_apply _ shapeCasts_S1024_S1024x1 p 0).trans ?_
  exact rowSum_apply _ p

theorem pay10_apply (w : S1024x1024.Idx → EReal) (N : S1024x1.Idx → EReal) (p : Fin 1024) :
    (k0_pay10 (F := Ideal) w N : S1024x1.Idx → EReal) (ix2 p 0) = N (ix2 p 0) + ∑ q : Fin 1024, w (ix2 p q) := by
  unfold k0_pay10
  rw [shapeCast_self]
  refine congrArg (N (ix2 p 0) + ·) ?_
  refine (shapeCast_a_a1_apply _ shapeCasts_S1024_S1024x1 p 0).trans ?_
  exact rowSum_apply _ p

theorem pay11_eq (m : S1024x1.Idx → EReal) : (k0_pay11 (F := Ideal) m : S1024x1.Idx → EReal) = m := by
  unfold k0_pay11
  exact shapeCast_self _ _

theorem pay12_apply (l P m N N' N'' : S1024x1.Idx → EReal) (p : Fin 1024) :
    (k0_pay12 (F := Ideal) l P m N N' N'' : S1024x1.Idx → EReal) (ix2 p 0)
      = Ideal.div (0 - ((P (ix2 p 0) - m (ix2 p 0) * N (ix2 p 0)) - Ideal.log (l (ix2 p 0) + Cert.Spec.eps) * N' (ix2 p 0))) (max (N'' (ix2 p 0)) 1) := by
  unfold k0_pay12 Cert.Spec.eps
  show Ideal.div (Ideal.ofBits .f32 0x00000000#32 - ((P (ix2 p 0) - m (ix2 p 0) * N (ix2 p 0)) - Ideal.log (l (ix2 p 0) + Ideal.ofBits .f32 0x3089705F#32) * N' (ix2 p 0))) (max (N'' (ix2 p 0)) (Ideal.ofBits .f32 0x3F800000#32)) = _
  rw [Ideal.ofBits_zero_f32, Ideal.ofBits_one_f32]

end Cert.KernelIdeal.Hand

end
-- ==== Proof.KI.AccumStep.lean ====
import proofs.«125195_j2516850835771_1_alg».proof.Proof.KI.Pieces
import proofs.«125195_j2516850835771_1_alg».proof.Proof.KI.AccumBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

open Idealize.ShloMosaic.ValueIdx

section Step
variable (V : (c : Dev nD) → (b : Ref sig .tc) → Buf (Elt F) ((c : Thread nD τ).loc b)) (c : Dev nD)

abbrev prevM (t : Fin cfg0.N) : Vec F S1024x1 .f32 := (outsAt0 V c (t.val - 1) (Nat.lt_of_le_of_lt (Nat.sub_le _ _) t.isLt)).2.2.1
abbrev prevL (t : Fin cfg0.N) : Vec F S1024x1 .f32 := (outsAt0 V c (t.val - 1) (Nat.lt_of_le_of_lt (Nat.sub_le _ _) t.isLt)).2.2.2.1
abbrev prevP (t : Fin cfg0.N) : Vec F S1024x1 .f32 := (outsAt0 V c (t.val - 1) (Nat.lt_of_le_of_lt (Nat.sub_le _ _) t.isLt)).2.2.2.2.1
abbrev prevN (t : Fin cfg0.N) : Vec F S1024x1 .f32 := (outsAt0 V c (t.val - 1) (Nat.lt_of_le_of_lt (Nat.sub_le _ _) t.isLt)).2.2.2.2.2

/-- Each statistic after a point: one block step from the reset values at column block 0, from the previous point's otherwise. -/
theorem statM_reset (t : Fin cfg0.N) (h0 : t.val % 8 = 0) :
    (outsAt0 V c t.val t.isLt).2.2.1 = stepM (rowBlk V c t) (colBlk V c t) k0_pay1 := by
  rw [outsAt0_A V c t h0]
  dsimp only
  exact sout0_A_0_eq c (argsAt t) ((hcond0_0 t).mpr h0) (not_c1_of_mod0 t h0) (iblk V c 0 t) (iblk V c 1 t) (iblk V c 2 t) (iblk V c 3 t)

theorem statM_step (t : Fin cfg0.N) (h0 : ¬t.val % 8 = 0) :
    (outsAt0 V c t.val t.isLt).2.2.1 = stepM (rowBlk V c t) (colBlk V c t) (prevM V c t) := by
  by_cases h1 : t.val % 8 = 7
  · rw [outsAt0_C V c t h0 h1]
    dsimp only
    exact sout0_C_0_eq c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h1]
    dsimp only
    exact sout0_B_0_eq c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem statL_reset (t : Fin cfg0.N) (h0 : t.val % 8 = 0) :
    (outsAt0 V c t.val t.isLt).2.2.2.1 = stepL (rowBlk V c t) (colBlk V c t) k0_pay1 k0_pay2 := by
  rw [outsAt0_A V c t h0]
  dsimp only
  exact sout0_A_1_eq c (argsAt t) ((hcond0_0 t).mpr h0) (not_c1_of_mod0 t h0) (iblk V c 0 t) (iblk V c 1 t) (iblk V c 2 t) (iblk V c 3 t)

theorem statL_step (t : Fin cfg0.N) (h0 : ¬t.val % 8 = 0) :
    (outsAt0 V c t.val t.isLt).2.2.2.1 = stepL (rowBlk V c t) (colBlk V c t) (prevM V c t) (prevL V c t) := by
  by_cases h1 : t.val % 8 = 7
  · rw [outsAt0_C V c t h0 h1]
    dsimp only
    exact sout0_C_1_eq c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h1]
    dsimp only
    exact sout0_B_1_eq c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem statP_reset (t : Fin cfg0.N) (h0 : t.val % 8 = 0) :
    (outsAt0 V c t.val t.isLt).2.2.2.2.1 = stepP (grid0.coords t) (rowBlk V c t) (colBlk V c t) (rowLab V c t) (colLab V c t) k0_pay3 := by
  rw [outsAt0_A V c t h0]
  dsimp only
  exact sout0_A_2_eq c (argsAt t) ((hcond0_0 t).mpr h0) (not_c1_of_mod0 t h0) (iblk V c 0 t) (iblk V c 1 t) (iblk V c 2 t) (iblk V c 3 t)

theorem statP_step (t : Fin cfg0.N) (h0 : ¬t.val % 8 = 0) :
    (outsAt0 V c t.val t.isLt).2.2.2.2.1 = stepP (grid0.coords t) (rowBlk V c t) (colBlk V c t) (rowLab V c t) (colLab V c t) (prevP V c t) := by
  by_cases h1 : t.val % 8 = 7
  · rw [outsAt0_C V c t h0 h1]
    dsimp only
    exact sout0_C_2_eq c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h1]
    dsimp only
    exact sout0_B_2_eq c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem statN_reset (t : Fin cfg0.N) (h0 : t.val % 8 = 0) :
    (outsAt0 V c t.val t.isLt).2.2.2.2.2 = stepN (grid0.coords t) (rowLab V c t) (colLab V c t) k0_pay4 := by
  rw [outsAt0_A V c t h0]
  dsimp only
  exact sout0_A_3_eq c (argsAt t) ((hcond0_0 t).mpr h0) (not_c1_of_mod0 t h0) (iblk V c 0 t) (iblk V c 1 t) (iblk V c 2 t) (iblk V c 3 t)

theorem statN_step (t : Fin cfg0.N) (h0 : ¬t.val % 8 = 0) :
    (outsAt0 V c t.val t.isLt).2.2.2.2.2 = stepN (grid0.coords t) (rowLab V c t) (colLab V c t) (prevN V c t) := by
  by_cases h1 : t.val % 8 = 7
  · rw [outsAt0_C V c t h0 h1]
    dsimp only
    exact sout0_C_3_eq c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2
  · rw [outsAt0_B V c t h0 h1]
    dsimp only
    exact sout0_B_3_eq c (argsAt t) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem result_loss (t : Fin cfg0.N) (h1 : t.val % 8 = 7) :
    (outsAt0 V c t.val t.isLt).1 = outLoss (outsAt0 V c t.val t.isLt).2.2.1 (outsAt0 V c t.val t.isLt).2.2.2.1 (outsAt0 V c t.val t.isLt).2.2.2.2.1 (outsAt0 V c t.val t.isLt).2.2.2.2.2 := by
  have h0 : ¬t.val % 8 = 0 := by omega
  rw [statM_step V c t h0, statL_step V c t h0, statP_step V c t h0, statN_step V c t h0]
  rw [outsAt0_C V c t h0 h1]
  dsimp only
  exact out0_C_4_eq c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

theorem result_count (t : Fin cfg0.N) (h1 : t.val % 8 = 7) :
    (outsAt0 V c t.val t.isLt).2.1 = (outsAt0 V c t.val t.isLt).2.2.2.2.2 := by
  have h0 : ¬t.val % 8 = 0 := by omega
  rw [statN_step V c t h0]
  rw [outsAt0_C V c t h0 h1]
  dsimp only
  exact out0_C_5_eq c (argsAt t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2

end Step

end Cert.KernelIdeal.Hand

end
-- ==== Proof.Online.lean ====
import proofs.«125195_j2516850835771_1_alg».proof.Proof.Spec
import Mathlib.Logic.Equiv.Fin.Basic
import Mathlib.Data.Fintype.BigOperators
import Mathlib.Data.Finset.Fold
import Mathlib.Algebra.BigOperators.Group.Finset.Basic
import Mathlib.Algebra.BigOperators.Ring.Finset
import Mathlib.Algebra.Order.BigOperators.Group.Finset
import Mathlib.Data.EReal.Operations
import Mathlib.Analysis.Complex.Exponential
import Mathlib.Analysis.SpecialFunctions.Log.Basic
import Mathlib.Order.Basic
import Mathlib.Order.MinMax
import Mathlib.Tactic.Ring
import Mathlib.Tactic.Linarith
import Mathlib.Tactic.Positivity

noncomputable section

namespace Cert.Online

open Idealize.ShloMosaic Cert.Spec

/-- Column q of block j. -/
def colN (j : ℕ) (q : Fin 1024) : Fin 8192 := ⟨(1024 * j + q.val) % 8192, Nat.mod_lt _ (by norm_num)⟩

/-- The four statistics folded over column blocks: the maximum, the normaliser rescaled to the new maximum, the masked sum, the count. -/
def runM (a : ℕ → Fin 1024 → EReal) : ℕ → EReal
  | 0 => ⊥
  | n + 1 => max (runM a n) ((Finset.univ : Finset (Fin 1024)).fold max ⊥ (a n))

def runL (a : ℕ → Fin 1024 → EReal) : ℕ → EReal
  | 0 => 0
  | n + 1 => Ideal.exp (runM a n - runM a (n + 1)) * runL a n + ∑ q : Fin 1024, Ideal.exp (a n q - runM a (n + 1))

def runP (a w : ℕ → Fin 1024 → EReal) : ℕ → EReal
  | 0 => 0
  | n + 1 => runP a w n + ∑ q : Fin 1024, w n q * a n q

def runN (w : ℕ → Fin 1024 → EReal) : ℕ → EReal
  | 0 => 0
  | n + 1 => runN w n + ∑ q : Fin 1024, w n q

def lossOf (m l P N : EReal) : EReal := Ideal.div (0 - ((P - m * N) - Ideal.log (l + eps) * N)) (max N 1)

variable (x : Fin 8192 → Fin 256 → EReal) (lab : Fin 8192 → BitVec 32)

def aRow (r : Fin 8192) : ℕ → Fin 1024 → EReal := fun j q => sim x r (colN j q)
def wRow (r : Fin 8192) : ℕ → Fin 1024 → EReal := fun j q => mask lab r (colN j q)

section General

theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem sum_blocks_gen {M : Type*} [AddCommMonoid M] (m n : ℕ) (g : Fin (m * n) → M) :
    ∑ s, g s = ∑ j : Fin m, ∑ q : Fin n, g (finProdFinEquiv (j, q)) := by
  rw [← Fintype.sum_prod_type', ← Fintype.sum_equiv finProdFinEquiv]
  intro x; rfl

theorem colN_eq (j : Fin 8) (q : Fin 1024) :
    colN j.val q = (finProdFinEquiv (j, q) : Fin (8 * 1024)) := by
  apply Fin.ext
  have hj := j.isLt
  have hq := q.isLt
  simp only [colN, finProdFinEquiv_apply_val]
  omega

/-- A sum over 8192 columns is the sum over eight blocks of 1024. -/
theorem sum_blocks {M : Type*} [AddCommMonoid M] (g : Fin 8192 → M) :
    ∑ j ∈ Finset.range 8, ∑ q : Fin 1024, g (colN j q) = ∑ s, g s := by
  rw [← Fin.sum_univ_eq_sum_range (fun j => ∑ q : Fin 1024, g (colN j q)) 8]
  have h := sum_blocks_gen 8 1024 (fun s : Fin (8 * 1024) => g s)
  rw [show (∑ s, g s) = ∑ s : Fin (8 * 1024), g s from rfl, h]
  refine Finset.sum_congr rfl fun j _ => Finset.sum_congr rfl fun q _ => ?_
  rw [colN_eq]

theorem colN_surj (s : Fin 8192) : ∃ j, j < 8 ∧ ∃ q, colN j q = s := by
  refine ⟨s.val / 1024, ?_, ⟨s.val % 1024, Nat.mod_lt _ (by norm_num)⟩, ?_⟩
  · have := s.isLt; omega
  · apply Fin.ext
    have := s.isLt
    simp only [colN]
    omega

end General

section Running

theorem runN_range (w : ℕ → Fin 1024 → EReal) (n : ℕ) :
    runN w n = ∑ j ∈ Finset.range n, ∑ q : Fin 1024, w j q := by
  induction n with
  | zero => simp [runN]
  | succ n ih => rw [runN, ih, Finset.sum_range_succ]

theorem runP_range (a w : ℕ → Fin 1024 → EReal) (n : ℕ) :
    runP a w n = ∑ j ∈ Finset.range n, ∑ q : Fin 1024, w j q * a j q := by
  induction n with
  | zero => simp [runP]
  | succ n ih => rw [runP, ih, Finset.sum_range_succ]

theorem runM_le_iff (a : ℕ → Fin 1024 → EReal) (n : ℕ) (c : EReal) :
    runM a n ≤ c ↔ ∀ j, j < n → ∀ q, a j q ≤ c := by
  induction n with
  | zero => simp [runM]
  | succ n ih =>
    rw [runM, max_le_iff, ih, Finset.fold_max_le]
    constructor
    · rintro ⟨h1, -, h2⟩ j hj q
      rcases Nat.lt_succ_iff_lt_or_eq.mp hj with h | h
      · exact h1 j h q
      · subst h; exact h2 q (Finset.mem_univ q)
    · intro h
      exact ⟨fun j hj q => h j (Nat.lt_succ_of_lt hj) q, bot_le, fun q _ => h n (Nat.lt_succ_self n) q⟩

end Running

theorem runN_eq (r : Fin 8192) : runN (wRow lab r) 8 = npos lab r := by
  rw [runN_range, npos]
  exact sum_blocks (fun s => mask lab r s)

theorem runP_eq (r : Fin 8192) :
    runP (aRow x r) (wRow lab r) 8 = ∑ s, mask lab r s * sim x r s := by
  rw [runP_range]
  exact sum_blocks (fun s => mask lab r s * sim x r s)

/-- Eight blocks exhaust the row, so the folded maximum is the row's. -/
theorem runM_eq (r : Fin 8192) : runM (aRow x r) 8 = rowMax x r := by
  apply eq_of_forall_ge_iff
  intro c
  rw [runM_le_iff, rowMax, Finset.fold_max_le]
  constructor
  · intro h
    refine ⟨bot_le, fun s _ => ?_⟩
    obtain ⟨j, hj, q, rfl⟩ := colN_surj s
    exact h j hj q
  · rintro ⟨-, h⟩ j _ q
    exact h (colN j q) (Finset.mem_univ _)

section RealValued

variable (a : ℕ → Fin 1024 → EReal) (ar : ℕ → Fin 1024 → ℝ) (ha : ∀ j q, a j q = (ar j q : EReal))
include ha

theorem runM_lt_top (n : ℕ) : runM a n < ⊤ := by
  induction n with
  | zero => exact bot_lt_top
  | succ n ih =>
    rw [runM, max_lt_iff, Finset.fold_max_lt]
    exact ⟨ih, bot_lt_top, fun q _ => by rw [ha]; exact EReal.coe_lt_top _⟩

theorem bot_lt_runM (n : ℕ) : ⊥ < runM a (n + 1) := by
  rw [runM, lt_max_iff, Finset.lt_fold_max]
  exact Or.inr (Or.inr ⟨⟨0, by norm_num⟩, Finset.mem_univ _, by rw [ha]; exact EReal.bot_lt_coe _⟩)

theorem runM_coe (n : ℕ) : ∃ m : ℝ, runM a (n + 1) = (m : EReal) :=
  ⟨(runM a (n + 1)).toReal,
    (EReal.coe_toReal (runM_lt_top a ar ha (n + 1)).ne (bot_lt_runM a ar ha n).ne').symm⟩

/-- For real features the folded normaliser is the sum of exponentials shifted by the current maximum: the rescalings telescope. -/
theorem runL_coe (n : ℕ) (m : ℝ) (hm : runM a (n + 1) = (m : EReal)) :
    runL a (n + 1) = ((∑ j ∈ Finset.range (n + 1), ∑ q : Fin 1024, Real.exp (ar j q - m) : ℝ) : EReal) := by
  have e2 : ∀ (j : ℕ) (m : ℝ) (q : Fin 1024), Ideal.exp (a j q - (m : EReal)) = ((Real.exp (ar j q - m) : ℝ) : EReal) :=
    fun j m q => by rw [ha, ← EReal.coe_sub, Ideal.exp_coe]
  induction n generalizing m with
  | zero =>
    rw [runL, hm]
    simp only [runM, runL, EReal.bot_sub, Ideal.exp_bot, mul_zero, zero_add, e2]
    rw [Finset.sum_range_one, coe_sum]
  | succ n ih =>
    obtain ⟨m', hm'⟩ := runM_coe a ar ha n
    rw [runL, hm, hm', ih m' hm']
    have e1 : Ideal.exp ((m' : EReal) - (m : EReal)) = ((Real.exp (m' - m) : ℝ) : EReal) := by
      rw [← EReal.coe_sub, Ideal.exp_coe]
    simp only [e1, e2]
    rw [← coe_sum, ← EReal.coe_mul, ← EReal.coe_add]
    congr 1
    rw [Finset.sum_range_succ _ (n + 1), Finset.mul_sum]
    congr 1
    refine Finset.sum_congr rfl fun j _ => ?_
    rw [Finset.mul_sum]
    refine Finset.sum_congr rfl fun q _ => ?_
    rw [← Real.exp_add]
    congr 1
    ring

end RealValued

theorem eps_real : ∃ e : ℝ, 0 < e ∧ eps = (e : EReal) := by
  refine ⟨((2 ^ 23 + 618591 : ℕ) : ℝ) * (2 : ℝ) ^ (-53 : ℤ), by positivity, ?_⟩
  simp [eps, Ideal.ofBits, Ideal.ieee]

theorem sim_real (hx : ∀ r k, ∃ v : ℝ, x r k = (v : EReal)) (r s : Fin 8192) :
    ∃ v : ℝ, sim x r s = (v : EReal) := by
  choose xr hxr using hx
  refine ⟨(∑ k, xr r k * xr s k) * (134217728 / 9395241), ?_⟩
  rw [sim, κ, EReal.coe_mul, coe_sum]
  congr 1
  refine Finset.sum_congr rfl fun k _ => ?_
  rw [hxr, hxr, EReal.coe_mul]

theorem mask_real (r s : Fin 8192) :
    mask lab r s = ((if lab s = lab r ∧ r ≠ s then 1 else 0 : ℝ) : EReal) := by
  unfold mask
  split_ifs <;> simp

/-- From the eight-block statistics the loss formula gives the specification's loss. -/
theorem lossOf_eq (hx : ∀ r k, ∃ v : ℝ, x r k = (v : EReal)) (r : Fin 8192) :
    lossOf (runM (aRow x r) 8) (runL (aRow x r) 8) (runP (aRow x r) (wRow lab r) 8) (runN (wRow lab r) 8) = loss x lab r := by
  choose sR hsR using sim_real x hx
  obtain ⟨e, he0, he⟩ := eps_real
  have hw := mask_real lab r
  generalize hwR : (fun s : Fin 8192 => (if lab s = lab r ∧ r ≠ s then 1 else 0 : ℝ)) = wR at hw
  replace hw : ∀ s, mask lab r s = ((wR s : ℝ) : EReal) := fun s => by rw [← hwR]; exact mask_real lab r s
  have ha : ∀ j q, aRow x r j q = ((sR r (colN j q) : ℝ) : EReal) := fun j q => hsR r (colN j q)
  obtain ⟨M, hM⟩ := runM_coe (aRow x r) (fun j q => sR r (colN j q)) ha 7
  have hL : runL (aRow x r) 8 = ((∑ s, Real.exp (sR r s - M) : ℝ) : EReal) := by
    rw [runL_coe (aRow x r) (fun j q => sR r (colN j q)) ha 7 M hM]
    congr 1
    exact sum_blocks (fun s => Real.exp (sR r s - M))
  have hrowMax : rowMax x r = (M : EReal) := by rw [← runM_eq, hM]
  have hrowL : rowL x r = ((∑ s, Real.exp (sR r s - M) : ℝ) : EReal) := by
    rw [rowL, hrowMax, coe_sum]
    refine Finset.sum_congr rfl fun s _ => ?_
    rw [hsR, ← EReal.coe_sub, Ideal.exp_coe]
  have hP : runP (aRow x r) (wRow lab r) 8 = ((∑ s, wR s * sR r s : ℝ) : EReal) := by
    rw [runP_eq, coe_sum]
    refine Finset.sum_congr rfl fun s _ => ?_
    rw [hw, hsR, EReal.coe_mul]
  have hnpos : npos lab r = ((∑ s, wR s : ℝ) : EReal) := by
    rw [npos, coe_sum]
    exact Finset.sum_congr rfl fun s _ => hw s
  have hN : runN (wRow lab r) 8 = ((∑ s, wR s : ℝ) : EReal) := by rw [runN_eq, hnpos]
  generalize hLdef : (∑ s, Real.exp (sR r s - M)) = L at hL hrowL
  have hLpos : 0 < L := by
    rw [← hLdef]
    exact Finset.sum_pos (fun s _ => Real.exp_pos _) ⟨⟨0, by norm_num⟩, Finset.mem_univ _⟩
  have hlog : Ideal.log ((L : EReal) + eps) = ((Real.log (L + e) : ℝ) : EReal) := by
    rw [he, ← EReal.coe_add, Ideal.log_coe, if_neg (by linarith)]
  have hsum : ∑ s, mask lab r s * logProb x r s
      = ((∑ s, wR s * ((sR r s - M) - Real.log (L + e)) : ℝ) : EReal) := by
    rw [coe_sum]
    refine Finset.sum_congr rfl fun s _ => ?_
    rw [logProb, hrowMax, hrowL, hlog, hw, hsR, ← EReal.coe_sub, ← EReal.coe_sub, ← EReal.coe_mul]
  rw [lossOf, loss, hM, hL, hP, hN, hnpos, hsum, hlog, max_comm (1 : EReal)]
  rw [← EReal.coe_mul, ← EReal.coe_mul, ← EReal.coe_sub, ← EReal.coe_sub, ← EReal.coe_zero, ← EReal.coe_sub,
    ← EReal.coe_neg]
  congr 2
  simp only [mul_sub, Finset.sum_sub_distrib, ← Finset.sum_mul]
  ring

end Cert.Online

end
-- ==== Proof.KI.AccumInv.lean ====
import proofs.«125195_j2516850835771_1_alg».proof.Proof.KI.Payloads
import proofs.«125195_j2516850835771_1_alg».proof.Proof.KI.AccumStep
import proofs.«125195_j2516850835771_1_alg».proof.Proof.Online
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

open Idealize.ShloMosaic.ValueIdx

open Cert.Online (colN runM runL runP runN lossOf aRow wRow)

section Apply

def simB (x0 x1 : S1024x256.Idx → EReal) (p q : Fin 1024) : EReal :=
  (∑ k : Fin 256, x0 (ix2 p k) * x1 (ix2 q k)) * Cert.Spec.κ

def maskB (i : grid0.Coords) (x2 : S1024x1.Idx → BitVec 32) (x3 : S1x1024.Idx → BitVec 32) (p q : Fin 1024) : EReal :=
  if x2 (ix2 p 0) = x3 (ix2 0 q) ∧ 1024 * (i 0).val + p.val ≠ 1024 * (i 1).val + q.val then 1 else 0

theorem stepM_apply (x0 x1 : S1024x256.Idx → EReal) (m : S1024x1.Idx → EReal) (p : Fin 1024) :
    (stepM (F := Ideal) x0 x1 m : S1024x1.Idx → EReal) (ix2 p 0)
      = max (m (ix2 p 0)) ((Finset.univ : Finset (Fin 1024)).fold max ⊥ (fun q => simB x0 x1 p q)) := by
  unfold stepM
  rw [pay11_eq, pay7_apply]
  simp only [pay5_apply]
  rfl

theorem stepL_apply (x0 x1 : S1024x256.Idx → EReal) (m l : S1024x1.Idx → EReal) (p : Fin 1024) :
    (stepL (F := Ideal) x0 x1 m l : S1024x1.Idx → EReal) (ix2 p 0)
      = Ideal.exp (m (ix2 p 0) - (stepM (F := Ideal) x0 x1 m : S1024x1.Idx → EReal) (ix2 p 0)) * l (ix2 p 0)
        + ∑ q : Fin 1024, Ideal.exp (simB x0 x1 p q - (stepM (F := Ideal) x0 x1 m : S1024x1.Idx → EReal) (ix2 p 0)) := by
  unfold stepL stepM
  rw [pay8_apply, pay11_eq]
  simp only [pay5_apply]
  rfl

theorem stepP_apply (i : grid0.Coords) (x0 x1 : S1024x256.Idx → EReal) (x2 : S1024x1.Idx → BitVec 32) (x3 : S1x1024.Idx → BitVec 32)
    (P : S1024x1.Idx → EReal) (p : Fin 1024) :
    (stepP (F := Ideal) i x0 x1 x2 x3 P : S1024x1.Idx → EReal) (ix2 p 0)
      = P (ix2 p 0) + ∑ q : Fin 1024, maskB i x2 x3 p q * simB x0 x1 p q := by
  unfold stepP
  rw [pay9_apply]
  simp only [pay5_apply, pay6_apply]
  rfl

theorem stepN_apply (i : grid0.Coords) (x2 : S1024x1.Idx → BitVec 32) (x3 : S1x1024.Idx → BitVec 32)
    (N : S1024x1.Idx → EReal) (p : Fin 1024) :
    (stepN (F := Ideal) i x2 x3 N : S1024x1.Idx → EReal) (ix2 p 0) = N (ix2 p 0) + ∑ q : Fin 1024, maskB i x2 x3 p q := by
  unfold stepN
  rw [pay10_apply]
  simp only [pay6_apply]
  rfl

theorem outLoss_apply (m l P N : S1024x1.Idx → EReal) (p : Fin 1024) :
    (outLoss (F := Ideal) m l P N : S1024x1.Idx → EReal) (ix2 p 0)
      = lossOf (m (ix2 p 0)) (l (ix2 p 0)) (P (ix2 p 0)) (N (ix2 p 0)) := by
  unfold outLoss
  rw [pay12_apply]
  rfl

theorem fold_step (a w : ℕ → Fin 1024 → EReal) (j : ℕ) (m l P N : EReal) (sa sw : Fin 1024 → EReal)
    (hsa : ∀ q, sa q = a j q) (hsw : ∀ q, sw q = w j q)
    (hm : m = runM a j) (hl : l = runL a j) (hP : P = runP a w j) (hN : N = runN w j) (m' : EReal)
    (hm' : m' = max m ((Finset.univ : Finset (Fin 1024)).fold max ⊥ sa)) :
    m' = runM a (j + 1) ∧ Ideal.exp (m - m') * l + ∑ q : Fin 1024, Ideal.exp (sa q - m') = runL a (j + 1)
      ∧ P + ∑ q : Fin 1024, sw q * sa q = runP a w (j + 1) ∧ N + ∑ q : Fin 1024, sw q = runN w (j + 1) := by
  obtain rfl : sa = a j := funext hsa
  obtain rfl : sw = w j := funext hsw
  subst hm hl hP hN hm'
  exact ⟨rfl, rfl, rfl, rfl⟩

end Apply

section Point
variable (V : (c : Dev nD) → (b : Ref sig .tc) → Buf (Elt Ideal) ((c : Thread nD τ).loc b)) (c : Dev nD)
  (x : Fin 8192 → Fin 256 → EReal) (lab : Fin 8192 → BitVec 32)

theorem colN_val (j : ℕ) (hj : j < 8) (q : Fin 1024) : (colN j q).val = 1024 * j + q.val := by
  have := q.isLt
  show (1024 * j + q.val) % 8192 = _
  exact Nat.mod_eq_of_lt (by omega)

theorem simB_eq (hV0 : ∀ r k, (V c main_v0 : S8192x256.Idx → EReal) (ix2 r k) = x r k)
    (t : Fin cfg0.N) (p q : Fin 1024) :
    simB (rowBlk V c t) (colBlk V c t) p q = aRow x (colN (t.val / 8) p) (t.val % 8) q := by
  have hN : t.val < 64 := lt_of_lt_of_eq t.isLt N_0
  show _ = Cert.Spec.sim x (colN (t.val / 8) p) (colN (t.val % 8) q)
  unfold simB Cert.Spec.sim
  congr 1
  refine Finset.sum_congr rfl fun k _ => ?_
  rw [rowBlk_apply V c t p k (colN (t.val / 8) p) (colN_val _ (by omega) p),
    colBlk_apply V c t q k (colN (t.val % 8) q) (colN_val _ (by omega) q), hV0, hV0]

theorem maskB_eq (hV1 : ∀ r, (V c main_v1 : S8192x1.Idx → BitVec 32) (ix2 r 0) = lab r)
    (hV2 : ∀ s, (V c main_v2 : S1x8192.Idx → BitVec 32) (ix2 0 s) = lab s)
    (t : Fin cfg0.N) (p q : Fin 1024) :
    maskB (grid0.coords t) (rowLab V c t) (colLab V c t) p q = wRow lab (colN (t.val / 8) p) (t.val % 8) q := by
  have hN : t.val < 64 := lt_of_lt_of_eq t.isLt N_0
  obtain ⟨-, -, -, -, -, -, -, -, -, -, -, -, g0, g1⟩ := idx_facts t
  have hr := colN_val (t.val / 8) (by omega) p
  have hs := colN_val (t.val % 8) (by omega) q
  show _ = Cert.Spec.mask lab (colN (t.val / 8) p) (colN (t.val % 8) q)
  unfold maskB Cert.Spec.mask
  rw [rowLab_apply V c t p (colN (t.val / 8) p) hr, colLab_apply V c t q (colN (t.val % 8) q) hs, hV1, hV2, g0, g1]
  refine if_congr ⟨fun h => ⟨h.1.symm, fun e => h.2 ?_⟩, fun h => ⟨h.1.symm, fun e => h.2 (Fin.ext ?_)⟩⟩ rfl rfl
  · rw [← hr, ← hs, e]
  · rw [hr, hs, e]

end Point

section Invariant
variable (V : (c : Dev nD) → (b : Ref sig .tc) → Buf (Elt Ideal) ((c : Thread nD τ).loc b)) (c : Dev nD)
  (x : Fin 8192 → Fin 256 → EReal) (lab : Fin 8192 → BitVec 32)
  (hV0 : ∀ r k, (V c main_v0 : S8192x256.Idx → EReal) (ix2 r k) = x r k)
  (hV1 : ∀ r, (V c main_v1 : S8192x1.Idx → BitVec 32) (ix2 r 0) = lab r)
  (hV2 : ∀ s, (V c main_v2 : S1x8192.Idx → BitVec 32) (ix2 0 s) = lab s)
include hV0 hV1 hV2

theorem point_step (t : Fin cfg0.N) (p : Fin 1024) (m l P N : S1024x1.Idx → EReal)
    (hm : m (ix2 p 0) = runM (aRow x (colN (t.val / 8) p)) (t.val % 8))
    (hl : l (ix2 p 0) = runL (aRow x (colN (t.val / 8) p)) (t.val % 8))
    (hP : P (ix2 p 0) = runP (aRow x (colN (t.val / 8) p)) (wRow lab (colN (t.val / 8) p)) (t.val % 8))
    (hN : N (ix2 p 0) = runN (wRow lab (colN (t.val / 8) p)) (t.val % 8)) :
    (stepM (F := Ideal) (rowBlk V c t) (colBlk V c t) m : S1024x1.Idx → EReal) (ix2 p 0) = runM (aRow x (colN (t.val / 8) p)) (t.val % 8 + 1)
    ∧ (stepL (F := Ideal) (rowBlk V c t) (colBlk V c t) m l : S1024x1.Idx → EReal) (ix2 p 0) = runL (aRow x (colN (t.val / 8) p)) (t.val % 8 + 1)
    ∧ (stepP (F := Ideal) (grid0.coords t) (rowBlk V c t) (colBlk V c t) (rowLab V c t) (colLab V c t) P : S1024x1.Idx → EReal) (ix2 p 0)
        = runP (aRow x (colN (t.val / 8) p)) (wRow lab (colN (t.val / 8) p)) (t.val % 8 + 1)
    ∧ (stepN (F := Ideal) (grid0.coords t) (rowLab V c t) (colLab V c t) N : S1024x1.Idx → EReal) (ix2 p 0) = runN (wRow lab (colN (t.val / 8) p)) (t.val % 8 + 1) := by
  rw [stepL_apply (rowBlk V c t) (colBlk V c t) m l p,
    stepP_apply (grid0.coords t) (rowBlk V c t) (colBlk V c t) (rowLab V c t) (colLab V c t) P p,
    stepN_apply (grid0.coords t) (rowLab V c t) (colLab V c t) N p]
  exact fold_step (aRow x (colN (t.val / 8) p)) (wRow lab (colN (t.val / 8) p)) (t.val % 8) (m (ix2 p 0)) (l (ix2 p 0)) (P (ix2 p 0)) (N (ix2 p 0))
    (fun q => simB (rowBlk V c t) (colBlk V c t) p q) (fun q => maskB (grid0.coords t) (rowLab V c t) (colLab V c t) p q)
    (fun q => simB_eq V c x hV0 t p q) (fun q => maskB_eq V c lab hV1 hV2 t p q) hm hl hP hN _
    (stepM_apply (rowBlk V c t) (colBlk V c t) m p)

/-- After point t, row p's statistics are the folds over the first t % 8 + 1 column blocks. -/
theorem stats_inv : ∀ (n : ℕ) (t : Fin cfg0.N), t.val = n → ∀ p : Fin 1024,
      ((outsAt0 (F := Ideal) V c t.val t.isLt).2.2.1 : S1024x1.Idx → EReal) (ix2 p 0) = runM (aRow x (colN (t.val / 8) p)) (t.val % 8 + 1)
    ∧ ((outsAt0 (F := Ideal) V c t.val t.isLt).2.2.2.1 : S1024x1.Idx → EReal) (ix2 p 0) = runL (aRow x (colN (t.val / 8) p)) (t.val % 8 + 1)
    ∧ ((outsAt0 (F := Ideal) V c t.val t.isLt).2.2.2.2.1 : S1024x1.Idx → EReal) (ix2 p 0) = runP (aRow x (colN (t.val / 8) p)) (wRow lab (colN (t.val / 8) p)) (t.val % 8 + 1)
    ∧ ((outsAt0 (F := Ideal) V c t.val t.isLt).2.2.2.2.2 : S1024x1.Idx → EReal) (ix2 p 0) = runN (wRow lab (colN (t.val / 8) p)) (t.val % 8 + 1) := by
  intro n
  induction n using Nat.strong_induction_on with
  | _ n ih =>
    intro t ht p
    have hN : t.val < 64 := lt_of_lt_of_eq t.isLt N_0
    by_cases h0 : t.val % 8 = 0
    · rw [statM_reset V c t h0, statL_reset V c t h0, statP_reset V c t h0, statN_reset V c t h0]
      have z : ∀ j, j = 0 → ((⊥ : EReal) = runM (aRow x (colN (t.val / 8) p)) j ∧ (0 : EReal) = runL (aRow x (colN (t.val / 8) p)) j
          ∧ (0 : EReal) = runP (aRow x (colN (t.val / 8) p)) (wRow lab (colN (t.val / 8) p)) j ∧ (0 : EReal) = runN (wRow lab (colN (t.val / 8) p)) j) := by
        rintro j rfl; exact ⟨rfl, rfl, rfl, rfl⟩
      obtain ⟨z1, z2, z3, z4⟩ := z _ h0
      exact point_step V c x lab hV0 hV1 hV2 t p (k0_pay1 (F := Ideal)) (k0_pay2 (F := Ideal)) (k0_pay3 (F := Ideal)) (k0_pay4 (F := Ideal))
        ((pay1_apply _).trans z1) ((pay2_apply _).trans z2) ((pay3_apply _).trans z3) ((pay4_apply _).trans z4)
    · rw [statM_step V c t h0, statL_step V c t h0, statP_step V c t h0, statN_step V c t h0]
      have hlt : t.val - 1 < cfg0.N := Nat.lt_of_le_of_lt (Nat.sub_le _ _) t.isLt
      obtain ⟨iM, iL, iP, iN⟩ := ih (t.val - 1) (by omega) ⟨t.val - 1, hlt⟩ rfl p
      have e1 : (t.val - 1) / 8 = t.val / 8 := by omega
      have e2 : (t.val - 1) % 8 + 1 = t.val % 8 := by omega
      dsimp only at iM iL iP iN
      rw [e1, e2] at iM iL iP iN
      exact point_step V c x lab hV0 hV1 hV2 t p (prevM V c t) (prevL V c t) (prevP V c t) (prevN V c t) iM iL iP iN

end Invariant

section Results
variable (V : (c : Dev nD) → (b : Ref sig .tc) → Buf (Elt Ideal) ((c : Thread nD τ).loc b)) (c : Dev nD)
  (x : Fin 8192 → Fin 256 → EReal) (lab : Fin 8192 → BitVec 32)
  (hV0 : ∀ r k, (V c main_v0 : S8192x256.Idx → EReal) (ix2 r k) = x r k)
  (hV1 : ∀ r, (V c main_v1 : S8192x1.Idx → BitVec 32) (ix2 r 0) = lab r)
  (hV2 : ∀ s, (V c main_v2 : S1x8192.Idx → BitVec 32) (ix2 0 s) = lab s)
include hV0 hV1 hV2

/-- At column block 7 the stored block is the specification's loss, for real features. -/
theorem loss_at (hx : ∀ r k, ∃ v : ℝ, x r k = (v : EReal)) (t : Fin cfg0.N) (h7 : t.val % 8 = 7) (p : Fin 1024) (r : Fin 8192)
    (hr : r.val = 1024 * (t.val / 8) + p.val) :
    ((outsAt0 (F := Ideal) V c t.val t.isLt).1 : S1024x1.Idx → EReal) (ix2 p 0) = Cert.Spec.loss x lab r := by
  have hN : t.val < 64 := lt_of_lt_of_eq t.isLt N_0
  obtain rfl : r = colN (t.val / 8) p := Fin.ext (hr.trans (colN_val _ (by omega) p).symm)
  obtain ⟨iM, iL, iP, iN⟩ := stats_inv V c x lab hV0 hV1 hV2 t.val t rfl p
  rw [result_loss V c t h7, outLoss_apply, iM, iL, iP, iN, h7]
  exact Cert.Online.lossOf_eq x lab hx _

theorem count_at (t : Fin cfg0.N) (h7 : t.val % 8 = 7) (p : Fin 1024) (r : Fin 8192)
    (hr : r.val = 1024 * (t.val / 8) + p.val) :
    ((outsAt0 (F := Ideal) V c t.val t.isLt).2.1 : S1024x1.Idx → EReal) (ix2 p 0) = Cert.Spec.npos lab r := by
  have hN : t.val < 64 := lt_of_lt_of_eq t.isLt N_0
  obtain rfl : r = colN (t.val / 8) p := Fin.ext (hr.trans (colN_val _ (by omega) p).symm)
  obtain ⟨iM, iL, iP, iN⟩ := stats_inv V c x lab hV0 hV1 hV2 t.val t rfl p
  rw [result_count V c t h7, iN, h7]
  exact Cert.Online.runN_eq lab _

end Results

end Cert.KernelIdeal.Hand

end
-- ==== Proof.KI.Accum.lean ====
import proofs.«125195_j2516850835771_1_alg».proof.Proof.KI.Frame
import proofs.«125195_j2516850835771_1_alg».proof.Proof.KI.AccumCover
import proofs.«125195_j2516850835771_1_alg».proof.Proof.KI.AccumInv
import proofs.«125195_j2516850835771_1_alg».proof.Proof.KI.Payloads
import proofs.«125195_j2516850835771_1_alg».proof.Proof.Online
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

section Final
variable (V : (c : Dev nD) → (b : Ref sig .tc) → Buf (Elt Ideal) ((c : Thread nD τ).loc b)) (c : Dev nD)
  (x : Fin 8192 → Fin 256 → EReal) (lab : Fin 8192 → BitVec 32)

/-- The two result arrays after the region are the specification's loss and count, row by row. -/
theorem final_loss
    (hV0 : ∀ r k, (V c main_v0 : S8192x256.Idx → EReal) (ix2 r k) = x r k)
    (hV1 : ∀ r, (V c main_v1 : S8192x1.Idx → BitVec 32) (ix2 r 0) = lab r)
    (hV2 : ∀ s, (V c main_v2 : S1x8192.Idx → BitVec 32) (ix2 0 s) = lab s)
    (hx : ∀ r k, ∃ v : ℝ, x r k = (v : EReal)) :
    ((dat0 (F := Ideal) V c).arrAt 4 cfg0.N : S8192x1.Idx → EReal) = fun y => Cert.Spec.loss x lab ⟨(y 0).val, idx2_lt0 y⟩ :=
  arr4_of_points V c (fun r => Cert.Spec.loss x lab r) (fun t h7 p r hr => loss_at V c x lab hV0 hV1 hV2 hx t h7 p r hr)

theorem final_npos
    (hV0 : ∀ r k, (V c main_v0 : S8192x256.Idx → EReal) (ix2 r k) = x r k)
    (hV1 : ∀ r, (V c main_v1 : S8192x1.Idx → BitVec 32) (ix2 r 0) = lab r)
    (hV2 : ∀ s, (V c main_v2 : S1x8192.Idx → BitVec 32) (ix2 0 s) = lab s)
    (hx : ∀ r k, ∃ v : ℝ, x r k = (v : EReal)) :
    ((dat0 (F := Ideal) V c).arrAt 5 cfg0.N : S8192x1.Idx → EReal) = fun y => Cert.Spec.npos lab ⟨(y 0).val, idx2_lt0 y⟩ :=
  arr5_of_points V c (fun r => Cert.Spec.npos lab r) (fun t h7 p r hr => count_at V c x lab hV0 hV1 hV2 t h7 p r hr)

end Final

end Cert.KernelIdeal.Hand

end
-- ==== Proof.KI.Tail.lean ====
import proofs.«125195_j2516850835771_1_alg».proof.Proof.KI.Cases
import proofs.«125195_j2516850835771_1_alg».proof.Proof.Spec
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

theorem tail_reduce_rows (h' : S8192x1.ReducesTo [0, 1] S_) (hu : 0 < S_.numel) (v : S8192x1.Idx → EReal) (j : S_.Idx) :
    (Host.reduceAdd (F := Ideal) (φ := .f32) v (constant S_ .f32 0x00000000#32) h' hu) j = ∑ r : Fin 8192, v (ix2 r 0) := by
  rw [hostReduceAdd_apply, Ideal.hostReduceAdd_total h' (fun b => b.elim0), constant_apply, Ideal.ofBits_zero_f32, zero_add,
    sum_idx2]
  exact Finset.sum_congr rfl fun r _ => Fin.sum_univ_one _

theorem tail_cmp_ogt_zero (a : EReal) : Ideal.cmp .ogt a 0 = if 0 < a then 1#1 else 0#1 := by
  unfold Ideal.cmp
  by_cases h : 0 < a <;> simp [h]

theorem tail_uitofp_apply {s : Shape} {φ : FTy} {w : Nat} (b : IVec s w) (i : s.Idx) :
    (uitofp φ b : FVec Ideal s φ) i = FloatOps.uitofp φ (b i) := rfl

theorem tail_uitofp_bit (c : Prop) [Decidable c] :
    (FloatOps.uitofp (F := Ideal) .f32 (if c then 1#1 else 0#1) : Ideal .f32) = if c then (1 : EReal) else 0 := by
  by_cases h : c
  · rw [if_pos h, if_pos h]; show (((1#1 : BitVec 1).toNat : ℝ) : EReal) = 1; simp
  · rw [if_neg h, if_neg h]; show (((0#1 : BitVec 1).toNat : ℝ) : EReal) = 0; simp

theorem tail_select_bit {α : Type} (c : Prop) [Decidable c] (a b : α) :
    Scalar.select (if c then 1#1 else 0#1) a b = if c then a else b := by
  by_cases h : c
  · rw [if_pos h, if_pos h, select_one]
  · rw [if_neg h, if_neg h, select_zero]

theorem tail_bcast_zero (h : S_.BroadcastsInDim S8192x1 (![] : Fin 0 → Fin S8192x1.rank)) :
    @broadcastInDim S_ (Elt Ideal EltTy.f32) S8192x1 (![] : Fin 0 → Fin 2) h (constant (F := Ideal) S_ .f32 0x00000000#32)
      = fun _ => (0 : EReal) := by
  funext i
  show Ideal.ofBits .f32 0x00000000#32 = 0
  exact Ideal.ofBits_zero_f32

/-- The host operations after the region average the losses of the rows that have a positive. -/
theorem tail_result (Wa : Valuation τ sig (Elt Ideal)) (x : Fin 8192 → Fin 256 → EReal) (lab : Fin 8192 → BitVec 32)
    (h4 : (Wa (Proc.devRef .tc main_v3_0) : S8192x1.Idx → EReal) = fun y => Cert.Spec.loss x lab ⟨(y 0).val, idx2_lt0 y⟩)
    (h5 : (Wa (Proc.devRef .tc main_v3_1) : S8192x1.Idx → EReal) = fun y => Cert.Spec.npos lab ⟨(y 0).val, idx2_lt0 y⟩) :
    (StableHlo.after (hostOps1_3 (F := Ideal)) (StableHlo.after (hostOps1_2 (F := Ideal)) (StableHlo.after (hostOps1_1 (F := Ideal))
        (StableHlo.after (hostOps1 (F := Ideal)) Wa))) (Proc.devRef .tc main_v13) : S_.Idx → EReal)
      = fun _ => Cert.Spec.result x lab := by

  have hN : ∀ r : Fin 8192, (Wa (Proc.devRef .tc main_v3_1) : S8192x1.Idx → EReal) (ix2 r 0) = Cert.Spec.npos lab r :=
    fun r => by rw [h5]
  have hL : ∀ r : Fin 8192, (Wa (Proc.devRef .tc main_v3_0) : S8192x1.Idx → EReal) (ix2 r 0) = Cert.Spec.loss x lab r :=
    fun r => by rw [h4]

  unfold hostOps1_3 hostOps1_2 hostOps1_1 hostOps1
  after_results
  simp only [StableHlo.TRef.ofBuf, StableHlo.TRef.toBuf, cast_eq]
  rw [tail_bcast_zero]

  funext j
  simp only [select_apply, cmpf_apply, hostDivf_apply, maximumf_apply, constant_apply, tail_reduce_rows, tail_uitofp_apply,
    hN, hL, Ideal.cmpf_def, Ideal.ofBits_zero_f32, Ideal.ofBits_one_f32, tail_cmp_ogt_zero,
    tail_uitofp_bit, tail_select_bit]

  unfold Cert.Spec.result Cert.Spec.cnt Cert.Spec.tot
  rfl

end Cert.KernelIdeal.Hand

end
-- ==== Proof.RefValue.lean ====
import proofs.«125195_j2516850835771_1_alg».proof.Proof.RefRun
import Idealize.ShloMosaic.Lib.IdealHost
import proofs.«125195_j2516850835771_1_alg».proof.Proof.RefRead
import proofs.«125195_j2516850835771_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.ValueIdx
open Cert.ReferenceIdeal.ReadP

variable (X : (⟨S8192x256, .f32⟩ : BufTy).Contents (Elt Ideal)) (L : (⟨S8192, .i32⟩ : BufTy).Contents (Elt Ideal))
variable (x : Fin 8192 → Fin 256 → EReal) (lab : Fin 8192 → BitVec 32)

theorem uitofp_ofBool (b : Bool) :
    FloatOps.uitofp (F := Ideal) .f32 (BitVec.ofBool b) = if b then (1 : EReal) else 0 := by
  cases b
  · show (((0#1 : BitVec 1).toNat : ℝ) : EReal) = 0
    simp
  · show (((1#1 : BitVec 1).toNat : ℝ) : EReal) = 1
    simp

theorem uitofp_cmpi_eq (a b : BitVec 32) :
    FloatOps.uitofp (F := Ideal) .f32 (IntOp.cmpi .eq a b) = if a = b then (1 : EReal) else 0 := by
  unfold IntOp.cmpi
  rw [uitofp_ofBool]
  by_cases h : a = b <;> simp [h]

theorem ofNat_eq_iff (r s : Fin 8192) : BitVec.ofNat 32 r.val = BitVec.ofNat 32 s.val ↔ r = s := by
  constructor
  · intro h
    have h' := congrArg BitVec.toNat h
    rw [BitVec.toNat_ofNat, BitVec.toNat_ofNat, Nat.mod_eq_of_lt (by have := r.isLt; omega),
      Nat.mod_eq_of_lt (by have := s.isLt; omega)] at h'
    exact Fin.ext h'
  · rintro rfl; rfl

theorem one_sub_one : (1 : EReal) - 1 = 0 := by
  rw [← EReal.coe_one, ← EReal.coe_sub, sub_self, EReal.coe_zero]

theorem mask_stage (hl : ∀ r, L (ix1 r) = lab r) (r s : Fin 8192) :
    val_main_v14 (F := Ideal) L (ix2 r s) = Cert.Spec.mask lab r s := by
  rw [val_main_v14_apply, val_main_v5_apply, val_main_v4_apply, val_main_v2_apply, val_main_v0_apply,
    val_main_v3_apply, val_main_v1_apply, val_main_v13_apply, val_main_v12_apply, val_main_cst_apply,
    val_main_v11_apply, val_main_v10_apply, val_main_v9_apply, val_main_v6_apply, val_main_v8_apply,
    val_main_c_apply, val_main_v7_apply]
  have e0 : idx_main_v0 (idx_main_v2 (ix2 r s)) = ix1 s := funext fun a => Fin.ext (by match a with | ⟨0, _⟩ => rfl)
  have e1 : idx_main_v1 (idx_main_v3 (ix2 r s)) = ix1 r := funext fun a => Fin.ext (by match a with | ⟨0, _⟩ => rfl)
  rw [e0, e1, hl, hl, uitofp_cmpi_eq, uitofp_cmpi_eq]
  show (if lab s = lab r then (1 : EReal) else 0) * (Ideal.ofBits .f32 0x3F800000#32 - (if (BitVec.ofNat 32 r.val + 0#32) = BitVec.ofNat 32 s.val then (1 : EReal) else 0)) = _
  rw [Ideal.ofBits_one_f32, BitVec.add_zero]
  unfold Cert.Spec.mask
  simp only [ofNat_eq_iff]
  by_cases h1 : lab s = lab r <;> by_cases h2 : r = s
  · rw [if_pos h1, if_pos h2, if_neg (fun h => h.2 h2), one_sub_one, mul_zero]
  · rw [if_pos h1, if_neg h2, if_pos ⟨h1, h2⟩, sub_zero, mul_one]
  · rw [if_neg h1, zero_mul, if_neg (show ¬(lab s = lab r ∧ r ≠ s) from fun h => h1 h.1)]
  · rw [if_neg h1, zero_mul, if_neg (show ¬(lab s = lab r ∧ r ≠ s) from fun h => h1 h.1)]

theorem temp_f32 : Ideal.ofBits .f32 0x3D8F5C29#32 = ((9395241 / 134217728 : ℝ) : EReal) := by
  simp [Ideal.ofBits, Ideal.ieee, -EReal.coe_mul]; norm_num

/-- The reference's stages read at an index are the specification's quantities; dividing by the temperature is multiplying by its exact reciprocal. -/
theorem sim_stage (hx : ∀ r k, X (ix2 r k) = x r k) (r s : Fin 8192) :
    val_main_v18 (F := Ideal) X (ix2 r s) = Cert.Spec.sim x r s := by
  rw [val_main_v18_apply, val_main_v16_apply, val_main_v17_apply, val_main_cst_0_apply]
  simp only [val_main_v15_apply]
  have el : ∀ k : Fin 256, lidx_main_v16 (ix2 r s) k = ix2 r k := fun k =>
    funext fun a => Fin.ext (by match a with | ⟨0, _⟩ => rfl | ⟨1, _⟩ => rfl)
  have er : ∀ k : Fin 256, idx_main_v15 (ridx_main_v16 (ix2 r s) k) = ix2 s k := fun k =>
    funext fun a => Fin.ext (by match a with | ⟨0, _⟩ => rfl | ⟨1, _⟩ => rfl)
  simp only [el, er, hx]
  show Ideal.div (∑ k : Fin 256, x r k * x s k) (Ideal.ofBits .f32 0x3D8F5C29#32) = _
  rw [temp_f32, Ideal.div_coe (by norm_num)]
  unfold Cert.Spec.sim Cert.Spec.κ
  congr 2
  norm_num

theorem ninf_f32 : Ideal.ofBits .f32 0xFF800000#32 = ⊥ := by simp [Ideal.ofBits, Ideal.ieee]

theorem red1 : S8192x8192.Reduces [1] S8192 := by decide

theorem lift_row (r s : Fin 8192) : (red1.lift (ix1 r) s : S8192x8192.Idx) = ix2 r s :=
  funext fun a => Fin.ext (by match a with | ⟨0, _⟩ => rfl | ⟨1, _⟩ => rfl)

theorem rowMax_stage (hx : ∀ r k, X (ix2 r k) = x r k) (r : Fin 8192) :
    val_main_v19 (F := Ideal) X (ix1 r) = Cert.Spec.rowMax x r := by
  unfold val_main_v19
  rw [Host.reduce_eq_fold_single FloatOps.maximumf _ _ reducesTo_S8192x8192_S8192_d1 red1 h_S_ (ix1 r)]
  have e : (val_main_v18 (F := Ideal) X ∘ red1.lift (ix1 r)) = fun s : Fin 8192 => Cert.Spec.sim x r s :=
    funext fun s : Fin 8192 =>
      (congrArg (val_main_v18 (F := Ideal) X) (lift_row r s)).trans (sim_stage X x hx r s)
  rw [e, val_main_cst_1_apply]
  show Finset.fold max (Ideal.ofBits .f32 0xFF800000#32) (fun s : Fin 8192 => Cert.Spec.sim x r s) Finset.univ = _
  rw [ninf_f32]
  rfl

theorem shift_stage (hx : ∀ r k, X (ix2 r k) = x r k) (r s : Fin 8192) :
    val_main_v22 (F := Ideal) X (ix2 r s) = Cert.Spec.sim x r s - Cert.Spec.rowMax x r := by
  rw [val_main_v22_apply, val_main_v21_apply, val_main_v20_apply, sim_stage X x hx]
  have e : idx_main_v20 (idx_main_v21 (ix2 r s)) = ix1 r := funext fun a => Fin.ext (by match a with | ⟨0, _⟩ => rfl)
  rw [e, rowMax_stage X x hx]
  rfl

theorem rowL_stage (hx : ∀ r k, X (ix2 r k) = x r k) (r : Fin 8192) :
    val_main_v24 (F := Ideal) X (ix1 r) = Cert.Spec.rowL x r := by
  rw [val_main_v24_apply, val_main_cst_2_apply]
  have e : ∀ k : Fin 8192, idx_main_v24 (ix1 r) k = ix2 r k := fun k =>
    funext fun a => Fin.ext (by match a with | ⟨0, _⟩ => rfl | ⟨1, _⟩ => rfl)
  simp only [e, val_main_v23_apply, shift_stage X x hx]
  show Ideal.ofBits .f32 0x00000000#32 + ∑ s : Fin 8192, Ideal.exp (Cert.Spec.sim x r s - Cert.Spec.rowMax x r) = _
  rw [Ideal.ofBits_zero_f32, zero_add]
  rfl

theorem logProb_stage (hx : ∀ r k, X (ix2 r k) = x r k) (r s : Fin 8192) :
    val_main_v30 (F := Ideal) X (ix2 r s) = Cert.Spec.logProb x r s := by
  rw [val_main_v30_apply, shift_stage X x hx, val_main_v29_apply, val_main_v28_apply, val_main_v27_apply,
    val_main_v25_apply, val_main_v26_apply, val_main_cst_3_apply]
  have e : idx_main_v25 (idx_main_v29 (ix2 r s)) = ix1 r := funext fun a => Fin.ext (by match a with | ⟨0, _⟩ => rfl)
  rw [e, rowL_stage X x hx]
  rfl

theorem npos_stage (hl : ∀ r, L (ix1 r) = lab r) (r : Fin 8192) :
    val_main_v31 (F := Ideal) L (ix1 r) = Cert.Spec.npos lab r := by
  rw [val_main_v31_apply, val_main_cst_4_apply]
  have e : ∀ k : Fin 8192, idx_main_v31 (ix1 r) k = ix2 r k := fun k =>
    funext fun a => Fin.ext (by match a with | ⟨0, _⟩ => rfl | ⟨1, _⟩ => rfl)
  simp only [e, mask_stage L lab hl]
  show Ideal.ofBits .f32 0x00000000#32 + ∑ s : Fin 8192, Cert.Spec.mask lab r s = _
  rw [Ideal.ofBits_zero_f32, zero_add]
  rfl

theorem loss_stage (hx : ∀ r k, X (ix2 r k) = x r k) (hl : ∀ r, L (ix1 r) = lab r) (r : Fin 8192) :
    val_main_v36 (F := Ideal) X L (ix1 r) = Cert.Spec.loss x lab r := by
  rw [val_main_v36_apply, val_main_v34_apply, val_main_v33_apply, val_main_cst_5_apply, val_main_v35_apply,
    val_main_call0_v1_apply, val_main_call0_v0_apply, val_main_cst_6_apply, npos_stage L lab hl]
  have e : ∀ k : Fin 8192, idx_main_v33 (ix1 r) k = ix2 r k := fun k =>
    funext fun a => Fin.ext (by match a with | ⟨0, _⟩ => rfl | ⟨1, _⟩ => rfl)
  simp only [e, val_main_v32_apply, mask_stage L lab hl, logProb_stage X x hx]
  show Ideal.div (-(Ideal.ofBits .f32 0x00000000#32 + ∑ s : Fin 8192, Cert.Spec.mask lab r s * Cert.Spec.logProb x r s))
      (max (Ideal.ofBits .f32 0x3F800000#32) (Cert.Spec.npos lab r)) = _
  rw [Ideal.ofBits_zero_f32, zero_add, Ideal.ofBits_one_f32]
  rfl

theorem sum_idx1 {n : Nat} (f : (⟨1, ![n]⟩ : Shape).Idx → EReal) : ∑ j, f j = ∑ r : Fin n, f (ix1 r) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

theorem uitofp_cmp_ogt (a b : EReal) :
    FloatOps.uitofp (F := Ideal) .f32 (FloatOps.cmpf (F := Ideal) (φ := .f32) .ogt a b)
      = if b < a then (1 : EReal) else 0 := by
  show FloatOps.uitofp (F := Ideal) .f32 (BitVec.ofBool (decide (b < a))) = _
  rw [uitofp_ofBool]
  by_cases h : b < a <;> simp [h]

theorem select_cmp_ogt (a b u v : EReal) :
    Scalar.select (FloatOps.cmpf (F := Ideal) (φ := .f32) .ogt a b) u v = if b < a then u else v := by
  show (if BitVec.ofBool (decide (b < a)) = 1#1 then u else v) = _
  by_cases h : b < a <;> simp [h]

theorem cnt_stage (hl : ∀ r, L (ix1 r) = lab r) (i : S_.Idx) :
    val_main_v40 (F := Ideal) L i = Cert.Spec.cnt lab := by
  rw [val_main_v40_apply, val_main_cst_8_apply, sum_idx1]
  simp only [val_main_v39_apply, val_main_v38_apply, val_main_v37_apply, val_main_cst_7_apply, npos_stage L lab hl]
  show Ideal.ofBits .f32 0x00000000#32 + ∑ r : Fin 8192, FloatOps.uitofp (F := Ideal) .f32
      (FloatOps.cmpf (F := Ideal) (φ := .f32) .ogt (Cert.Spec.npos lab r) (Ideal.ofBits .f32 0x00000000#32)) = _
  rw [Ideal.ofBits_zero_f32, zero_add]
  simp only [uitofp_cmp_ogt]
  rfl

theorem tot_stage (hx : ∀ r k, X (ix2 r k) = x r k) (hl : ∀ r, L (ix1 r) = lab r) (i : S_.Idx) :
    val_main_v42 (F := Ideal) X L i = Cert.Spec.tot x lab := by
  rw [val_main_v42_apply, val_main_cst_10_apply, sum_idx1]
  simp only [val_main_v41_apply, val_main_v38_apply, val_main_v37_apply, val_main_cst_7_apply, npos_stage L lab hl,
    loss_stage X L x lab hx hl, val_main_call1_v0_apply, val_main_cst_9_apply]
  show Ideal.ofBits .f32 0x00000000#32 + ∑ r : Fin 8192, Scalar.select
      (FloatOps.cmpf (F := Ideal) (φ := .f32) .ogt (Cert.Spec.npos lab r) (Ideal.ofBits .f32 0x00000000#32))
      (Cert.Spec.loss x lab r) (Ideal.ofBits .f32 0x00000000#32) = _
  rw [Ideal.ofBits_zero_f32, zero_add]
  simp only [select_cmp_ogt]
  rfl

/-- The reference's composed term is the specification's result. -/
theorem ref_result (m : (ℓ : Loc nD τ sig) → Buf (Elt Ideal) ℓ) (c : Dev nD) (x : Fin 8192 → Fin 256 → EReal) (lab : Fin 8192 → BitVec 32)
    (hx : ∀ r k, (m ((c.tc : Thread nD τ).loc main_arg0) : S8192x256.Idx → EReal) (ix2 r k) = x r k)
    (hl : ∀ r, (m ((c.tc : Thread nD τ).loc main_arg1) : S8192.Idx → BitVec 32) (ix1 r) = lab r) :
    (Cert.ReferenceIdeal.ValueP.res_out0 (F := Ideal) m c : S_.Idx → EReal) = fun _ => Cert.Spec.result x lab := by
  funext i
  show Cert.ReferenceIdeal.ValueP.res_main_v46 (F := Ideal) m c i = _
  rw [ReadP.val_main_v46_eq, val_main_v46_apply, val_main_v43_apply, val_main_v45_apply, val_main_v44_apply,
    val_main_cst_11_apply, val_main_cst_12_apply, val_main_cst_13_apply,
    cnt_stage _ lab hl, tot_stage _ _ x lab hx hl]
  show Scalar.select (FloatOps.cmpf (F := Ideal) (φ := .f32) .ogt (Cert.Spec.cnt lab) (Ideal.ofBits .f32 0x00000000#32))
      (Ideal.div (Cert.Spec.tot x lab) (max (Cert.Spec.cnt lab) (Ideal.ofBits .f32 0x3F800000#32)))
      (Ideal.ofBits .f32 0x00000000#32) = _
  rw [Ideal.ofBits_zero_f32, Ideal.ofBits_one_f32, select_cmp_ogt]
  rfl

end Cert.ReferenceIdeal.RefValue

end
-- ==== Proof.Finite.lean ====
import proofs.«125195_j2516850835771_1_alg».proof.Defs
import proofs.«125195_j2516850835771_1_alg».proof.Proof.Gen.Pre_finite_inputs
import Idealize.ShloMosaic.Lib.ReduceAll
import Idealize.ShloMosaic.Lib.ValueIdx

noncomputable section

namespace Cert.Proof.Finite

open Idealize.ShloMosaic Idealize.ShloMosaic.TcCoe Idealize.SL.Sem Idealize.ShloMosaic.ValueIdx

local instance : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem lt_of_cmp_olt (x y : EReal) (h : Ideal.cmp .olt x y = 1#1) : x < y := by
  change BitVec.ofBool (decide (x < y)) = 1#1 at h
  by_contra hlt
  rw [decide_eq_false hlt] at h
  exact absurd h (by decide)

theorem real_of_abs_lt_top (x : EReal) (h : max x (-x) < ⊤) : ∃ v : ℝ, x = (v : EReal) := by
  induction x using EReal.rec with
  | bot => exact absurd h (by simp)
  | top => exact absurd h (by simp)
  | coe v => exact ⟨v, rfl⟩

theorem finite_of_fn (x : FVec Ideal Cert.Pre_finite_inputs.S8192x256 .f32) (y : IVec Cert.Pre_finite_inputs.S8192 32)
    (h : Cert.Pre_finite_inputs.fn (F := Ideal) x y = fun _ => 1#1) (r : Fin 8192) (k : Fin 256) :
    ∃ v : ℝ, x (ix2 r k) = (v : EReal) := by
  have h1 := congrFun h ValueIdx.ix0
  unfold Cert.Pre_finite_inputs.fn at h1
  dsimp only at h1
  have h2 := Host.reduce_andi_all _ _ _ _ _ h1 (ix2 r k)
  have h3 : Ideal.cmp .olt (max (x (ix2 r k)) (-(x (ix2 r k)))) (Ideal.ofBits .f32 0x7F800000#32) = 1#1 := h2
  rw [ofBits_inf] at h3
  exact real_of_abs_lt_top _ (lt_of_cmp_olt _ _ h3)

/-- Under the precondition every feature is a real number. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ (r : Fin 8192) (k : Fin 256), ∃ v : ℝ,
      (m ((c.tc : Thread Cert.KernelIdeal.nD Cert.KernelIdeal.τ).loc Cert.KernelIdeal.main_arg0) : Cert.KernelIdeal.S8192x256.Idx → EReal) (ix2 r k) = (v : EReal) := by
  intro r k
  exact finite_of_fn _ _ (h c) r k

end Cert.Proof.Finite

end
-- ==== Proof.Claims.lean ====
import proofs.«125195_j2516850835771_1_alg».proof.Defs
import proofs.«125195_j2516850835771_1_alg».proof.Proof.KI.Launch
import proofs.«125195_j2516850835771_1_alg».proof.Proof.KI.Entry
import proofs.«125195_j2516850835771_1_alg».proof.Proof.KI.Accum
import proofs.«125195_j2516850835771_1_alg».proof.Proof.KI.Tail
import proofs.«125195_j2516850835771_1_alg».proof.Proof.RefValue
import proofs.«125195_j2516850835771_1_alg».proof.Proof.Finite
import proofs.«125195_j2516850835771_1_alg».proof.Proof.Gen.Kernel
import proofs.«125195_j2516850835771_1_alg».proof.Proof.Gen.Pre_finite_inputs
import Idealize.ShloMosaic.PureOps.IdealRules

noncomputable section

namespace Cert.Proof.Claims

open Idealize.ShloMosaic Idealize.ShloMosaic.TcCoe Idealize.SL.Sem Idealize.ShloMosaic.ValueIdx

/-- On words a named constant is its literal. -/
instance : Named Bits := ⟨fun _ _ {φ} b => Scalar.ofBits φ b⟩

/-- The two kernel programs differ in one constant only, which on words is the same literal. -/
theorem defs_eq : Cert.Kernel.defs (F := Bits) = Cert.KernelIdeal.defs (F := Bits) := by
  unfold Cert.Kernel.defs Cert.KernelIdeal.defs Cert.Kernel.defs₀ Cert.KernelIdeal.defs₀
  refine congrArg (Pipeline.defs _) (congrArg Defs.onTc (funext fun l => funext fun a => ?_))
  match l, a with
  | 0, (t, s) => rfl
  | ⟨_ + 1, h⟩, _ => exact absurd h (Nat.not_lt.2 (Nat.le_add_left _ _))

open Cert.KernelIdeal in
/-- At any reading of the floats the kernel program runs and leaves both arguments as launched. -/
theorem frame {F : FTy → Type} [FloatOps F] [Named F]
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (Hand.mem_uc main_arg0 (by decide))).trans (Hand.W6_main_arg0 m ρ c),
       (h c _ (Hand.mem_uc main_arg1 (by decide))).trans (Hand.W6_main_arg1 m ρ c)⟩)
    (Hand.run_main m ρ)

theorem frame_K : Cert.frame_Kernel := fun m ρ _ => by
  rw [defs_eq]; exact frame (F := Bits) m ρ

theorem frame_KI : Cert.frame_KernelIdeal := fun m ρ _ => frame m ρ

theorem frame_RI : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal :=
  IdealRules.named_const.statement Cert.KernelIdeal.κ "inv_temp" .f32 0x41649249#32 ((134217728 / 9395241 : ℝ) : EReal) rfl

/-- Both sides end at the specification's loss of the shared arguments, whose features are real numbers. -/
theorem algebraic : Cert.algebraic_KernelIdeal_ReferenceIdeal := by
  intro m ρ m' ρ' hpre hagree
  let x : Dev Cert.KernelIdeal.nD → Fin 8192 → Fin 256 → EReal := fun c r k =>
    (m ((c.tc : Thread Cert.KernelIdeal.nD Cert.KernelIdeal.τ).loc Cert.KernelIdeal.main_arg0) : Cert.KernelIdeal.S8192x256.Idx → EReal) (ix2 r k)
  let lab : Dev Cert.KernelIdeal.nD → Fin 8192 → BitVec 32 := fun c r =>
    (m ((c.tc : Thread Cert.KernelIdeal.nD Cert.KernelIdeal.τ).loc Cert.KernelIdeal.main_arg1) : Cert.KernelIdeal.S8192.Idx → BitVec 32) (ix1 r)
  have hfin : ∀ c r k, ∃ v : ℝ, x c r k = (v : EReal) := fun c => Cert.Proof.Finite.finite_of_pre m hpre c
  refine ⟨fun c => (fun _ => Cert.Spec.result (x c) (lab c)), ?_, ?_⟩
  · refine (θ_run Cert.KernelIdeal.defs _ _).mono (fun _ h c => ⟨?_,
        (h c _ (Cert.KernelIdeal.Hand.mem_uc Cert.KernelIdeal.main_arg0 (by decide))).trans (Cert.KernelIdeal.Hand.W6_main_arg0 m ρ c),
        (h c _ (Cert.KernelIdeal.Hand.mem_uc Cert.KernelIdeal.main_arg1 (by decide))).trans (Cert.KernelIdeal.Hand.W6_main_arg1 m ρ c)⟩)
      (Cert.KernelIdeal.Hand.run_main (F := Ideal) m ρ)
    refine (h c _ (Cert.KernelIdeal.Hand.mem_uc Cert.KernelIdeal.main_v13 (by decide))).trans ?_
    have hV0 : ∀ r k, (Cert.KernelIdeal.Hand.V1 (F := Ideal) m ρ c Cert.KernelIdeal.main_v0 : Cert.KernelIdeal.S8192x256.Idx → EReal) (ix2 r k) = x c r k :=
      fun r k => Cert.KernelIdeal.Hand.entry_v0 m ρ c r k
    have hV1 : ∀ r, (Cert.KernelIdeal.Hand.V1 (F := Ideal) m ρ c Cert.KernelIdeal.main_v1 : Cert.KernelIdeal.S8192x1.Idx → BitVec 32) (ix2 r 0) = lab c r :=
      fun r => Cert.KernelIdeal.Hand.entry_v1 m ρ c r
    have hV2 : ∀ s, (Cert.KernelIdeal.Hand.V1 (F := Ideal) m ρ c Cert.KernelIdeal.main_v2 : Cert.KernelIdeal.S1x8192.Idx → BitVec 32) (ix2 0 s) = lab c s :=
      fun s => Cert.KernelIdeal.Hand.entry_v2 m ρ c s
    exact Cert.KernelIdeal.Hand.tail_result (Cert.KernelIdeal.Hand.W2 (F := Ideal) m ρ c) (x c) (lab c)
      ((Cert.KernelIdeal.Hand.W2_v3_0 m ρ c).trans (Cert.KernelIdeal.Hand.final_loss (Cert.KernelIdeal.Hand.V1 (F := Ideal) m ρ) c (x c) (lab c) hV0 hV1 hV2 (hfin c)))
      ((Cert.KernelIdeal.Hand.W2_v3_1 m ρ c).trans (Cert.KernelIdeal.Hand.final_npos (Cert.KernelIdeal.Hand.V1 (F := Ideal) m ρ) c (x c) (lab c) hV0 hV1 hV2 (hfin c)))
  · refine (θ_run Cert.ReferenceIdeal.defs _ _).mono (fun _ h c => ⟨(h c).1.trans ?_, (h c).2⟩)
      (Cert.ReferenceIdeal.ValueP.run (F := Ideal) m' ρ')
    exact Cert.ReferenceIdeal.RefValue.ref_result m' c (x c) (lab c)
      (fun r k => by rw [(hagree c).1]) (fun r => by rw [(hagree c).2])

end Cert.Proof.Claims

end
-- ==== Proof.lean ====
import proofs.«125195_j2516850835771_1_alg».proof.Defs
import proofs.«125195_j2516850835771_1_alg».proof.Proof.Gen.Kernel
import proofs.«125195_j2516850835771_1_alg».proof.Proof.Gen.KernelIdeal
import proofs.«125195_j2516850835771_1_alg».proof.Proof.Gen.ReferenceIdeal
import proofs.«125195_j2516850835771_1_alg».proof.Proof.Gen.Pre_finite_inputs
import proofs.«125195_j2516850835771_1_alg».proof.Proof.Claims

noncomputable section

namespace Cert.Proof

open Idealize.ShloMosaic Idealize.SL.Sem

/-- The five claims, under the witnesses of the programs' stated side conditions. -/
theorem claim : Cert.Claim :=
  ⟨Cert.Kernel.Gen.facts, Cert.KernelIdeal.Gen.facts, Cert.ReferenceIdeal.Gen.facts, Cert.Pre_finite_inputs.Gen.facts,
    Cert.Proof.Claims.frame_K, Cert.Proof.Claims.frame_KI, Cert.Proof.Claims.frame_RI, Cert.Proof.Claims.preserves,
    Cert.Proof.Claims.algebraic⟩

end Cert.Proof

end
